-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v114)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v114) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v133) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x600000 : Shape := ⟨2, ![2, 600000]⟩
abbrev S50000 : Shape := ⟨1, ![50000]⟩
abbrev S64x128 : Shape := ⟨2, ![64, 128]⟩
abbrev S128 : Shape := ⟨1, ![128]⟩
abbrev S128x128 : Shape := ⟨2, ![128, 128]⟩
abbrev S50x10x128 : Shape := ⟨3, ![50, 10, 128]⟩
abbrev S10x50 : Shape := ⟨2, ![10, 50]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S50x10x128 : S_.BroadcastsInDim S50x10x128 (![] : Fin 0 → Fin S50x10x128.rank)
  reducesTo_S50x10x128_S_d0_1_2 : S50x10x128.ReducesTo [0, 1, 2] S_
  bcast_S_S10x50 : S_.BroadcastsInDim S10x50 (![] : Fin 0 → Fin S10x50.rank)
  reducesTo_S10x50_S_d0_1 : S10x50.ReducesTo [0, 1] S_

variable [Facts]

def fn_part2 {F : FTy → Type} [FloatOps F] (main_arg9 : FVec F S50x10x128 .f32) (main_arg10 : FVec F S10x50 .f32) (main_v33 : IVec S_ 1) : IVec S_ 1 :=
  let main_v34 : FVec F S50x10x128 .f32 := Host.absf main_arg9
  let main_cst_12 : FVec F S_ .f32 := constant S_ .f32 0x7F800000#32
  let main_v35 : FVec F S50x10x128 .f32 := broadcastInDim S50x10x128 ![] bcast_S_S50x10x128 main_cst_12
  let main_v36 : IVec S50x10x128 1 := cmpf .olt main_v34 main_v35
  let main_c_13 : IVec S_ 1 := constantI S_ 1 1#1
  let main_v37 : IVec S_ 1 := (fun x v => Host.reduce IntOp.andi x v reducesTo_S50x10x128_S_d0_1_2 h_S_) main_v36 main_c_13
  let main_v38 : IVec S_ 1 := andi main_v33 main_v37
  let main_v39 : FVec F S10x50 .f32 := Host.absf main_arg10
  let main_cst_14 : FVec F S_ .f32 := constant S_ .f32 0x7F800000#32
  let main_v40 : FVec F S10x50 .f32 := broadcastInDim S10x50 ![] bcast_S_S10x50 main_cst_14
  let main_v41 : IVec S10x50 1 := cmpf .olt main_v39 main_v40
  let main_c_15 : IVec S_ 1 := constantI S_ 1 1#1
  let main_v42 : IVec S_ 1 := (fun x v => Host.reduce IntOp.andi x v reducesTo_S10x50_S_d0_1 h_S_) main_v41 main_c_15
  let main_v43 : IVec S_ 1 := andi main_v38 main_v42
  main_v43

def fn_part1 {F : FTy → Type} [FloatOps F] (main_arg6 : FVec F S128 .f32) (main_arg7 : FVec F S128x128 .f32) (main_arg8 : FVec F S128 .f32) (main_arg9 : FVec F S50x10x128 .f32) (main_arg10 : FVec F S10x50 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S50000x64 .f32) (main_arg1 : IVec S2x600000 32) (main_arg2 : IVec S50000 32) (main_arg3 : FVec F S64x128 .f32) (main_arg4 : FVec F S128 .f32) (main_arg5 : FVec F S128x128 .f32) (main_arg6 : FVec F S128 .f32) (main_arg7 : FVec F S128x128 .f32) (main_arg8 : FVec F S128 .f32) (main_arg9 : FVec F S50x10x128 .f32) (main_arg10 : FVec F S10x50 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x128 .f32 := Host.absf main_arg3
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_v13 main_v16
-- ==== Kernel.lean ====
abbrev S50000x64 : Shape := ⟨2, ![50000, 64]⟩
abbrev S2x600000 : Shape := ⟨2, ![2, 600000]⟩
abbrev S50000 : Shape := ⟨1, ![50000]⟩
abbrev S64x128 : Shape := ⟨2, ![64, 128]⟩
abbrev S128 : Shape := ⟨1, ![128]⟩
abbrev S128x128 : Shape := ⟨2, ![128, 128]⟩
abbrev S50x10x128 : Shape := ⟨3, ![50, 10, 128]⟩
abbrev S10x50 : Shape := ⟨2, ![10, 50]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S50000x1 : Shape := ⟨2, ![50000, 1]⟩
abbrev S50000x128 : Shape := ⟨2, ![50000, 128]⟩
abbrev S5000x64 : Shape := ⟨2, ![5000, 64]⟩
abbrev S5000x128 : Shape := ⟨2, ![5000, 128]⟩
abbrev S600000x128 : Shape := ⟨2, ![600000, 128]⟩
abbrev S1x128 : Shape := ⟨2, ![1, 128]⟩
abbrev S5000x1 : Shape := ⟨2, ![5000, 1]⟩
abbrev S512x128 : Shape := ⟨2, ![512, 128]⟩
abbrev S1x512 : Shape := ⟨2, ![1, 512]⟩
abbrev S5000x512 : Shape := ⟨2, ![5000, 512]⟩
abbrev S512x5000 : Shape := ⟨2, ![512, 5000]⟩
abbrev S500x128 : Shape := ⟨2, ![500, 128]⟩
abbrev S500 : Shape := ⟨1, ![500]⟩
abbrev S500x1 : Shape := ⟨2, ![500, 1]⟩
abbrev S50x128 : Shape := ⟨2, ![50, 128]⟩
abbrev S50 : Shape := ⟨1, ![50]⟩
abbrev S1x50 : Shape := ⟨2, ![1, 50]⟩
abbrev S500x50 : Shape := ⟨2, ![500, 50]⟩
abbrev S128x50 : Shape := ⟨2, ![128, 50]⟩
abbrev S50x10 : Shape := ⟨2, ![50, 10]⟩
abbrev S500x10 : Shape := ⟨2, ![500, 10]⟩

abbrev nBuf : Space → Nat
  | .hbm => 153
  | .vmem => 48
  | .smem => 0
  | _ => 0

abbrev hbmTy0_0 (i : Nat) : BufTy := match i % 128 with
  | 0 => ⟨S50000x64, .f32⟩
  | 1 => ⟨S2x600000, .i32⟩
  | 2 => ⟨S50000, .i32⟩
  | 3 => ⟨S64x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S50x10x128, .f32⟩
  | 10 => ⟨S10x50, .f32⟩
  | 11 => ⟨S1x600000, .i32⟩
  | 12 => ⟨S600000, .i32⟩
  | 13 => ⟨S1x600000, .i32⟩
  | 14 => ⟨S600000, .i32⟩
  | 15 => ⟨S_, .f32⟩
  | 16 => ⟨S600000, .f32⟩
  | 17 => ⟨S_, .f32⟩
  | 18 => ⟨S50000, .f32⟩
  | 19 => ⟨S600000x1, .i32⟩
  | 20 => ⟨S50000, .f32⟩
  | 21 => ⟨S_, .f32⟩
  | 22 => ⟨S50000, .f32⟩
  | 23 => ⟨S50000, .f32⟩
  | 24 => ⟨S50000, .f32⟩
  | 25 => ⟨S_, .i32⟩
  | 26 => ⟨S600000, .i32⟩
  | 27 => ⟨S600000, .i1⟩
  | 28 => ⟨S_, .i32⟩
  | 29 => ⟨S600000, .i32⟩
  | 30 => ⟨S600000, .i32⟩
  | 31 => ⟨S600000, .i32⟩
  | 32 => ⟨S600000x1, .i32⟩
  | 33 => ⟨S600000, .f32⟩
  | 34 => ⟨S_, .i32⟩
  | 35 => ⟨S600000, .i32⟩
  | 36 => ⟨S600000, .i1⟩
  | 37 => ⟨S_, .i32⟩
  | 38 => ⟨S600000, .i32⟩
  | 39 => ⟨S600000, .i32⟩
  | 40 => ⟨S600000, .i32⟩
  | 41 => ⟨S600000x1, .i32⟩
  | 42 => ⟨S600000, .f32⟩
  | 43 => ⟨S600000, .f32⟩
  | 44 => ⟨S50000, .f32⟩
  | 45 => ⟨S50000x1, .f32⟩
  | 46 => ⟨S50000x128, .f32⟩
  | 47 => ⟨S_, .i32⟩
  | 48 => ⟨S600000, .i32⟩
  | 49 => ⟨S600000, .i1⟩
  | 50 => ⟨S_, .i32⟩
  | 51 => ⟨S600000, .i32⟩
  | 52 => ⟨S600000, .i32⟩
  | 53 => ⟨S600000, .i32⟩
  | 54 => ⟨S600000x1, .i32⟩
  | 55 => ⟨S600000x128, .f32⟩
  | 56 => ⟨S600000x1, .f32⟩
  | 57 => ⟨S600000x128, .f32⟩
  | 58 => ⟨S600000x128, .f32⟩
  | 59 => ⟨S_, .f32⟩
  | 60 => ⟨S50000x128, .f32⟩
  | 61 => ⟨S600000x1, .i32⟩
  | 62 => ⟨S50000x128, .f32⟩
  | 63 => ⟨S1x128, .f32⟩
  | 64 => ⟨S50000x128, .f32⟩
  | 65 => ⟨S50000x128, .f32⟩
  | 66 => ⟨S_, .i32⟩
  | 67 => ⟨S600000, .i32⟩
  | 68 => ⟨S600000, .i1⟩
  | 69 => ⟨S_, .i32⟩
  | 70 => ⟨S600000, .i32⟩
  | 71 => ⟨S600000, .i32⟩
  | 72 => ⟨S600000, .i32⟩
  | 73 => ⟨S600000x1, .i32⟩
  | 74 => ⟨S600000x128, .f32⟩
  | 75 => ⟨S600000x1, .f32⟩
  | 76 => ⟨S600000x128, .f32⟩
  | 77 => ⟨S600000x128, .f32⟩
  | 78 => ⟨S_, .f32⟩
  | 79 => ⟨S50000x128, .f32⟩
  | 80 => ⟨S600000x1, .i32⟩
  | 81 => ⟨S50000x128, .f32⟩
  | 82 => ⟨S1x128, .f32⟩
  | 83 => ⟨S50000x128, .f32⟩
  | 84 => ⟨S50000x128, .f32⟩
  | 85 => ⟨S_, .i32⟩
  | 86 => ⟨S600000, .i32⟩
  | 87 => ⟨S600000, .i1⟩
  | 88 => ⟨S_, .i32⟩
  | 89 => ⟨S600000, .i32⟩
  | 90 => ⟨S600000, .i32⟩
  | 91 => ⟨S600000, .i32⟩
  | 92 => ⟨S600000x1, .i32⟩
  | 93 => ⟨S600000x128, .f32⟩
  | 94 => ⟨S600000x1, .f32⟩
  | 95 => ⟨S600000x128, .f32⟩
  | 96 => ⟨S600000x128, .f32⟩
  | 97 => ⟨S_, .f32⟩
  | 98 => ⟨S50000x128, .f32⟩
  | 99 => ⟨S600000x1, .i32⟩
  | 100 => ⟨S50000x128, .f32⟩
  | 101 => ⟨S1x128, .f32⟩
  | 102 => ⟨S50000x128, .f32⟩
  | 103 => ⟨S50000x1, .i32⟩
  | 104 => ⟨S512x128, .f32⟩
  | 105 => ⟨S500x128, .f32⟩
  | 106 => ⟨S_, .f32⟩
  | 107 => ⟨S50000, .f32⟩
  | 108 => ⟨S_, .f32⟩
  | 109 => ⟨S500, .f32⟩
  | 110 => ⟨S50000x1, .i32⟩
  | 111 => ⟨S500, .f32⟩
  | 112 => ⟨S_, .f32⟩
  | 113 => ⟨S500, .f32⟩
  | 114 => ⟨S500, .f32⟩
  | 115 => ⟨S500x1, .f32⟩
  | 116 => ⟨S500x128, .f32⟩
  | 117 => ⟨S500x128, .f32⟩
  | 118 => ⟨S_, .f32⟩
  | 119 => ⟨S50x128, .f32⟩
  | 120 => ⟨S_, .f32⟩
  | 121 => ⟨S50x128, .f32⟩
  | 122 => ⟨S50x128, .f32⟩
  | 123 => ⟨S500x128, .f32⟩
  | 124 => ⟨S_, .f32⟩
  | 125 => ⟨S500, .f32⟩
  | 126 => ⟨S500x1, .f32⟩
  | 127 => ⟨S50x128, .f32⟩
  | _ => ⟨S50000x64, .f32⟩

abbrev hbmTy0_1 (i : Nat) : BufTy := match i % 128 with
  | 0 => ⟨S_, .f32⟩
  | 1 => ⟨S50, .f32⟩
  | 2 => ⟨S1x50, .f32⟩
  | 3 => ⟨S500x50, .f32⟩
  | 4 => ⟨S500x50, .f32⟩
  | 5 => ⟨S500x50, .f32⟩
  | 6 => ⟨S_, .f32⟩
  | 7 => ⟨S500x128, .f32⟩
  | 8 => ⟨S500x128, .f32⟩
  | 9 => ⟨S128x50, .f32⟩
  | 10 => ⟨S500x50, .f32⟩
  | 11 => ⟨S500x50, .f32⟩
  | 12 => ⟨S_, .f32⟩
  | 13 => ⟨S500x50, .f32⟩
  | 14 => ⟨S500x50, .f32⟩
  | 15 => ⟨S_, .f32⟩
  | 16 => ⟨S500x50, .f32⟩
  | 17 => ⟨S500x50, .f32⟩
  | 18 => ⟨S_, .f32⟩
  | 19 => ⟨S500x50, .f32⟩
  | 20 => ⟨S500x50, .f32⟩
  | 21 => ⟨S500x50, .f32⟩
  | 22 => ⟨S500x50, .f32⟩
  | 23 => ⟨S50x10, .f32⟩
  | 24 => ⟨S500x10, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S64x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x1, .f32⟩
  | .local _ .vmem, ⟨24, _⟩ => ⟨S5000x1, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S128x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x1, .f32⟩
  | .local _ .vmem, ⟨38, _⟩ => ⟨S5000x1, .f32⟩
  | .local _ .vmem, ⟨39, _⟩ => ⟨S1x128, .f32⟩
  | .local _ .vmem, ⟨40, _⟩ => ⟨S5000x128, .f32⟩
  | .local _ .vmem, ⟨41, _⟩ => ⟨S5000x128, .f32⟩
  | .local _ .vmem, ⟨42, _⟩ => ⟨S5000x1, .i32⟩
  | .local _ .vmem, ⟨43, _⟩ => ⟨S5000x1, .i32⟩
  | .local _ .vmem, ⟨44, _⟩ => ⟨S5000x128, .f32⟩
  | .local _ .vmem, ⟨45, _⟩ => ⟨S5000x128, .f32⟩
  | .local _ .vmem, ⟨46, _⟩ => ⟨S512x128, .f32⟩
  | .local _ .vmem, ⟨47, _⟩ => ⟨S512x128, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  ofTc nBuf bufTy 0 47 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c : Ref sig .tc := ⟨.hbm, 25, rfl⟩
abbrev main_v11 : Ref sig .tc := ⟨.hbm, 26, rfl⟩
abbrev main_v12 : Ref sig .tc := ⟨.hbm, 27, rfl⟩
abbrev main_c_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_c_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_5 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_7 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_c_8 : Ref sig .tc := ⟨.hbm, 66, rfl⟩
abbrev main_v45 : Ref sig .tc := ⟨.hbm, 67, rfl⟩
abbrev main_v46 : Ref sig .tc := ⟨.hbm, 68, rfl⟩
abbrev main_c_9 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_10 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_c_11 : Ref sig .tc := ⟨.hbm, 85, rfl⟩
abbrev main_v61 : Ref sig .tc := ⟨.hbm, 86, rfl⟩
abbrev main_v62 : Ref sig .tc := ⟨.hbm, 87, rfl⟩
abbrev main_c_12 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_cst_13 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_cst_14 : Ref sig .tc := ⟨.hbm, 106, rfl⟩
abbrev main_v79 : Ref sig .tc := ⟨.hbm, 107, rfl⟩
abbrev main_cst_15 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_cst_16 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_cst_17 : Ref sig .tc := ⟨.hbm, 118, rfl⟩
abbrev main_v88 : Ref sig .tc := ⟨.hbm, 119, rfl⟩
abbrev main_cst_18 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_cst_19 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_cst_20 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_cst_21 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_cst_22 : Ref sig .tc := ⟨.hbm, 140, rfl⟩
abbrev main_v105 : Ref sig .tc := ⟨.hbm, 141, rfl⟩
abbrev main_v106 : Ref sig .tc := ⟨.hbm, 142, rfl⟩
abbrev main_cst_23 : Ref sig .tc := ⟨.hbm, 143, rfl⟩
abbrev main_v107 : Ref sig .tc := ⟨.hbm, 144, rfl⟩
abbrev main_v108 : Ref sig .tc := ⟨.hbm, 145, rfl⟩
abbrev main_cst_24 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc5_stg2_1 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg4_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg1_1 : Ref sig .tc := ⟨.vmem, 45, rfl⟩
abbrev cc6_stg2_0 : Ref sig .tc := ⟨.vmem, 46, rfl⟩
abbrev cc6_scratch0 : Ref sig .tc := ⟨.vmem, 47, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem2_1 : DmaSem sig := 38
abbrev cc5_sem3_0 : DmaSem sig := 39
abbrev cc5_sem4_0 : DmaSem sig := 40
abbrev cc5_sem4_1 : DmaSem sig := 41
abbrev cc6_sem0_0 : DmaSem sig := 42
abbrev cc6_sem0_1 : DmaSem sig := 43
abbrev cc6_sem1_0 : DmaSem sig := 44
abbrev cc6_sem1_1 : DmaSem sig := 45
abbrev cc6_sem2_0 : DmaSem sig := 46

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![10], ![false]⟩

def k6_cond2 (i : grid6.Coords) : BitVec 1 :=
  let arg0 : BitVec 32 := BitVec.ofNat 32 (i 0).val
  let c9_i32 : BitVec 32 := 9#32
  let v22 : BitVec 1 := Scalar.cmpi .eq arg0 c9_i32
  let v23 : BitVec 32 := Scalar.extui v22
  let c0_i32_8 : BitVec 32 := 0#32
  let v24 : BitVec 1 := Scalar.cmpi .ne v23 c0_i32_8
  v24

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S5000x1 .i32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S512x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  shapeCasts_S50000_S50000x1 : S50000.ShapeCasts S50000x1
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S5000x128_S5000x128_0_0 : ∀ a, (![0, 0] : Fin 2 → Nat) a + S5000x128.size a ≤ S5000x128.size a
  h_S5000x128 : 0 < S5000x128.numel
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S5000x1_S5000x128 : S5000x1.Broadcasts S5000x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  inb_S512x128_S512x128_0_0 : ∀ a, (![0, 0] : Fin 2 → Nat) a + S512x128.size a ≤ S512x128.size a
  h_S512x128 : 0 < S512x128.numel
  shapeCasts_S512x128_S512x128 : S512x128.ShapeCasts S512x128
  iota_S1x512_d1_w32 : S1x512.Iotas .tc 32 [1]
  broadcasts_S5000x1_S5000x512 : S5000x1.Broadcasts S5000x512
  broadcasts_S1x512_S5000x512 : S1x512.Broadcasts S5000x512
  natLt_1_32 : 1 < 32
  transposes_S5000x512_p1_0_S512x5000 : S5000x512.Transposes [1, 0] S512x5000
  slices_S512x128_S500x128_0_0 : S512x128.Slices ![0, 0] S500x128
  bcast_S_S500 : S_.BroadcastsInDim S500 (![] : Fin 0 → Fin S500.rank)
  bcast_S50000_S50000x1_0 : S50000.BroadcastsInDim S50000x1 (![0] : Fin 1 → Fin S50000x1.rank)
  bcast_S500_S500x1_0 : S500.BroadcastsInDim S500x1 (![0] : Fin 1 → Fin S500x1.rank)
  bcast_S500x1_S500x128_0_1 : S500x1.BroadcastsInDim S500x128 (![0, 1] : Fin 2 → Fin S500x128.rank)
  reducesTo_S50x10x128_S50x128_d1 : S50x10x128.ReducesTo [1] S50x128
  h_S_ : 0 < S_.numel
  bcast_S_S50x128 : S_.BroadcastsInDim S50x128 (![] : Fin 0 → Fin S50x128.rank)
  reducesTo_S500x128_S500_d1 : S500x128.ReducesTo [1] S500
  reducesTo_S50x128_S50_d1 : S50x128.ReducesTo [1] S50
  bcast_S50_S1x50_1 : S50.BroadcastsInDim S1x50 (![1] : Fin 1 → Fin S1x50.rank)
  bcast_S500x1_S500x50_0_1 : S500x1.BroadcastsInDim S500x50 (![0, 1] : Fin 2 → Fin S500x50.rank)
  bcast_S1x50_S500x50_0_1 : S1x50.BroadcastsInDim S500x50 (![0, 1] : Fin 2 → Fin S500x50.rank)
  bcast_S_S500x128 : S_.BroadcastsInDim S500x128 (![] : Fin 0 → Fin S500x128.rank)
  transposes_S50x128_S128x50_1_0 : S50x128.Transposes [1, 0] S128x50
  bcast_S_S500x50 : S_.BroadcastsInDim S500x50 (![] : Fin 0 → Fin S500x50.rank)
  transposes_S10x50_S50x10_1_0 : S10x50.Transposes [1, 0] S50x10
  scatter_S50000_S600000x1_S600000_n_0_0_1_wf : ScatterDims.WF S50000 S600000x1 S600000 [] [0] [0] 1
  gather_S50000_S600000x1_S600000_n_0_n_n_0_1_1_wf : GatherDims.WF S50000 S600000x1 S600000 [] [0] [] [0] [] 1 ![1]
  dot_S5000x64_S64x128_S5000x128_1_0_0_1_n_n_wf : DotDims.WF S5000x64 S64x128 S5000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x128_S5000x128_1_0_0_1_n_n_wf : DotDims.WF S5000x128 S128x128 S5000x128 [1] [0] [0] [1] [] []
  dot_S512x5000_S5000x128_S512x128_1_0_0_1_n_n_wf : DotDims.WF S512x5000 S5000x128 S512x128 [1] [0] [0] [1] [] []
  scatter_S500_S50000x1_S50000_n_0_0_1_wf : ScatterDims.WF S500 S50000x1 S50000 [] [0] [0] 1
  dot_S500x128_S128x50_S500x50_1_0_0_1_n_n_wf : DotDims.WF S500x128 S128x50 S500x50 [1] [0] [0] [1] [] []
  dot_S500x50_S50x10_S500x10_1_0_0_1_n_n_wf : DotDims.WF S500x50 S50x10 S500x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S50000x1.size a
  hwx3_2 : ∀ i : grid3.Coords, EltTy.bits .f32 = 32 ∨ (Rect.block (s := S50000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S50000x128.size a
  hwx3_4 : ∀ i : grid3.Coords, EltTy.bits .f32 = 32 ∨ (Rect.block (s := S50000x128) S5000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S50000x128.size a
  hwx4_2 : ∀ i : grid4.Coords, EltTy.bits .f32 = 32 ∨ (Rect.block (s := S50000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S50000x128.size a
  hwx5_1 : ∀ i : grid5.Coords, EltTy.bits .f32 = 32 ∨ (Rect.block (s := S50000x128) S5000x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x1.size a ≤ S50000x1.size a
  hwx5_2 : ∀ i : grid5.Coords, EltTy.bits .f32 = 32 ∨ (Rect.block (s := S50000x1) S5000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x128.size a ≤ S50000x128.size a
  hwx5_4 : ∀ i : grid5.Coords, EltTy.bits .f32 = 32 ∨ (Rect.block (s := S50000x128) S5000x128.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x1.size a ≤ S50000x1.size a
  hwx6_0 : ∀ i : grid6.Coords, EltTy.bits .i32 = 32 ∨ (Rect.block (s := S50000x1) S5000x1.size (cc6_transform_0 i) (hinb6_0 i)).WholeWords (EltTy.packing .i32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x128.size a ≤ S50000x128.size a
  hwx6_1 : ∀ i : grid6.Coords, EltTy.bits .f32 = 32 ∨ (Rect.block (s := S50000x128) S5000x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S512x128.size a ≤ S512x128.size a
  hwx6_2 : ∀ i : grid6.Coords, EltTy.bits .f32 = 32 ∨ (Rect.block (s := S512x128) S512x128.size (cc6_transform_2 i) (hinb6_2 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000_S600000x1_S600000_n_0_n_n_0_1_1 : GatherDims S50000 S600000x1 S600000 where
  offsetDims := []
  collapsedSliceDims := [0]
  operandBatchingDims := []
  startIndicesBatchingDims := []
  startIndexMap := [0]
  indexVectorDim := 1
  sliceSizes := ![1]
  wf := gather_S50000_S600000x1_S600000_n_0_n_n_0_1_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S512x5000_S5000x128_S512x128_1_0_0_1_n_n : DotDims S512x5000 S5000x128 S512x128 where
  lhsContracting := [1]
  rhsContracting := [0]
  lhsNonContracting := [0]
  rhsNonContracting := [1]
  lhsBatch := []
  rhsBatch := []
  wf := dot_S512x5000_S5000x128_S512x128_1_0_0_1_n_n_wf
def scatter_S500_S50000x1_S50000_n_0_0_1 : ScatterDims S500 S50000x1 S50000 where
  updateWindowDims := []
  insertedWindowDims := [0]
  scatterDimsToOperandDims := [0]
  indexVectorDim := 1
  wf := scatter_S500_S50000x1_S50000_n_0_0_1_wf
def dot_S500x128_S128x50_S500x50_1_0_0_1_n_n : DotDims S500x128 S128x50 S500x50 where
  lhsContracting := [1]
  rhsContracting := [0]
  lhsNonContracting := [0]
  rhsNonContracting := [1]
  lhsBatch := []
  rhsBatch := []
  wf := dot_S500x128_S128x50_S500x50_1_0_0_1_n_n_wf
def dot_S500x50_S50x10_S500x10_1_0_0_1_n_n : DotDims S500x50 S50x10 S500x10 where
  lhsContracting := [1]
  rhsContracting := [0]
  lhsNonContracting := [0]
  rhsNonContracting := [1]
  lhsBatch := []
  rhsBatch := []
  wf := dot_S500x50_S50x10_S500x10_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v43) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v57) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v27) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v58) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v59) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v59) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v60) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v73) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v60) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v27) S5000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v74) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v75) S5000x128.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v76) S5000x1.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v75) S5000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v77) S512x128.size cc6_transform_2 reads6_2 true true 1 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev idle6 : Fin 3 → grid6.Coords → Bool := fun | 0 => fun _ => false | 1 => fun _ => false | 2 => fun i => !(k6_cond2 i == 1#1) | ⟨_ + 3, h⟩ => absurd h (Nat.not_lt.2 (Nat.le_add_left _ _))

class Facts : Prop extends Facts₀ where

variable [Facts]
-- ==== ReferenceIdeal.lean ====
abbrev S50000x64 : Shape := ⟨2, ![50000, 64]⟩
abbrev S2x600000 : Shape := ⟨2, ![2, 600000]⟩
abbrev S50000 : Shape := ⟨1, ![50000]⟩
abbrev S64x128 : Shape := ⟨2, ![64, 128]⟩
abbrev S128 : Shape := ⟨1, ![128]⟩
abbrev S128x128 : Shape := ⟨2, ![128, 128]⟩
abbrev S50x10x128 : Shape := ⟨3, ![50, 10, 128]⟩
abbrev S10x50 : Shape := ⟨2, ![10, 50]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S50000x128 : Shape := ⟨2, ![50000, 128]⟩
abbrev S600000x128 : Shape := ⟨2, ![600000, 128]⟩
abbrev S50000x1 : Shape := ⟨2, ![50000, 1]⟩
abbrev S1x128 : Shape := ⟨2, ![1, 128]⟩
abbrev S500 : Shape := ⟨1, ![500]⟩
abbrev S500x128 : Shape := ⟨2, ![500, 128]⟩
abbrev S500x1 : Shape := ⟨2, ![500, 1]⟩
abbrev S50x128 : Shape := ⟨2, ![50, 128]⟩
abbrev S50 : Shape := ⟨1, ![50]⟩
abbrev S1x50 : Shape := ⟨2, ![1, 50]⟩
abbrev S500x50 : Shape := ⟨2, ![500, 50]⟩
abbrev S128x50 : Shape := ⟨2, ![128, 50]⟩
abbrev S50x10 : Shape := ⟨2, ![50, 10]⟩
abbrev S500x10 : Shape := ⟨2, ![500, 10]⟩

abbrev nBuf : Space → Nat
  | .hbm => 179
  | .vmem => 0
  | .smem => 0
  | _ => 0

abbrev hbmTy0_0 (i : Nat) : BufTy := match i % 128 with
  | 0 => ⟨S50000x64, .f32⟩
  | 1 => ⟨S2x600000, .i32⟩
  | 2 => ⟨S50000, .i32⟩
  | 3 => ⟨S64x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S50x10x128, .f32⟩
  | 10 => ⟨S10x50, .f32⟩
  | 11 => ⟨S1x600000, .i32⟩
  | 12 => ⟨S600000, .i32⟩
  | 13 => ⟨S1x600000, .i32⟩
  | 14 => ⟨S600000, .i32⟩
  | 15 => ⟨S_, .f32⟩
  | 16 => ⟨S600000, .f32⟩
  | 17 => ⟨S_, .f32⟩
  | 18 => ⟨S50000, .f32⟩
  | 19 => ⟨S600000x1, .i32⟩
  | 20 => ⟨S50000, .f32⟩
  | 21 => ⟨S_, .f32⟩
  | 22 => ⟨S50000, .f32⟩
  | 23 => ⟨S50000, .f32⟩
  | 24 => ⟨S50000, .f32⟩
  | 25 => ⟨S_, .i32⟩
  | 26 => ⟨S600000, .i32⟩
  | 27 => ⟨S600000, .i1⟩
  | 28 => ⟨S_, .i32⟩
  | 29 => ⟨S600000, .i32⟩
  | 30 => ⟨S600000, .i32⟩
  | 31 => ⟨S600000, .i32⟩
  | 32 => ⟨S600000x1, .i32⟩
  | 33 => ⟨S600000, .f32⟩
  | 34 => ⟨S_, .i32⟩
  | 35 => ⟨S600000, .i32⟩
  | 36 => ⟨S600000, .i1⟩
  | 37 => ⟨S_, .i32⟩
  | 38 => ⟨S600000, .i32⟩
  | 39 => ⟨S600000, .i32⟩
  | 40 => ⟨S600000, .i32⟩
  | 41 => ⟨S600000x1, .i32⟩
  | 42 => ⟨S600000, .f32⟩
  | 43 => ⟨S600000, .f32⟩
  | 44 => ⟨S50000x128, .f32⟩
  | 45 => ⟨S_, .i32⟩
  | 46 => ⟨S600000, .i32⟩
  | 47 => ⟨S600000, .i1⟩
  | 48 => ⟨S_, .i32⟩
  | 49 => ⟨S600000, .i32⟩
  | 50 => ⟨S600000, .i32⟩
  | 51 => ⟨S600000, .i32⟩
  | 52 => ⟨S600000x1, .i32⟩
  | 53 => ⟨S600000x128, .f32⟩
  | 54 => ⟨S600000x1, .f32⟩
  | 55 => ⟨S600000x128, .f32⟩
  | 56 => ⟨S600000x128, .f32⟩
  | 57 => ⟨S_, .f32⟩
  | 58 => ⟨S50000x128, .f32⟩
  | 59 => ⟨S600000x1, .i32⟩
  | 60 => ⟨S50000x128, .f32⟩
  | 61 => ⟨S50000, .f32⟩
  | 62 => ⟨S50000x1, .f32⟩
  | 63 => ⟨S50000x128, .f32⟩
  | 64 => ⟨S50000x128, .f32⟩
  | 65 => ⟨S50000x128, .f32⟩
  | 66 => ⟨S1x128, .f32⟩
  | 67 => ⟨S50000x128, .f32⟩
  | 68 => ⟨S50000x128, .f32⟩
  | 69 => ⟨S_, .f32⟩
  | 70 => ⟨S50000x128, .f32⟩
  | 71 => ⟨S50000x128, .f32⟩
  | 72 => ⟨S50000x128, .f32⟩
  | 73 => ⟨S_, .i32⟩
  | 74 => ⟨S600000, .i32⟩
  | 75 => ⟨S600000, .i1⟩
  | 76 => ⟨S_, .i32⟩
  | 77 => ⟨S600000, .i32⟩
  | 78 => ⟨S600000, .i32⟩
  | 79 => ⟨S600000, .i32⟩
  | 80 => ⟨S600000x1, .i32⟩
  | 81 => ⟨S600000x128, .f32⟩
  | 82 => ⟨S600000x1, .f32⟩
  | 83 => ⟨S600000x128, .f32⟩
  | 84 => ⟨S600000x128, .f32⟩
  | 85 => ⟨S_, .f32⟩
  | 86 => ⟨S50000x128, .f32⟩
  | 87 => ⟨S600000x1, .i32⟩
  | 88 => ⟨S50000x128, .f32⟩
  | 89 => ⟨S50000, .f32⟩
  | 90 => ⟨S50000x1, .f32⟩
  | 91 => ⟨S50000x128, .f32⟩
  | 92 => ⟨S50000x128, .f32⟩
  | 93 => ⟨S50000x128, .f32⟩
  | 94 => ⟨S1x128, .f32⟩
  | 95 => ⟨S50000x128, .f32⟩
  | 96 => ⟨S50000x128, .f32⟩
  | 97 => ⟨S_, .f32⟩
  | 98 => ⟨S50000x128, .f32⟩
  | 99 => ⟨S50000x128, .f32⟩
  | 100 => ⟨S50000x128, .f32⟩
  | 101 => ⟨S_, .i32⟩
  | 102 => ⟨S600000, .i32⟩
  | 103 => ⟨S600000, .i1⟩
  | 104 => ⟨S_, .i32⟩
  | 105 => ⟨S600000, .i32⟩
  | 106 => ⟨S600000, .i32⟩
  | 107 => ⟨S600000, .i32⟩
  | 108 => ⟨S600000x1, .i32⟩
  | 109 => ⟨S600000x128, .f32⟩
  | 110 => ⟨S600000x1, .f32⟩
  | 111 => ⟨S600000x128, .f32⟩
  | 112 => ⟨S600000x128, .f32⟩
  | 113 => ⟨S_, .f32⟩
  | 114 => ⟨S50000x128, .f32⟩
  | 115 => ⟨S600000x1, .i32⟩
  | 116 => ⟨S50000x128, .f32⟩
  | 117 => ⟨S50000, .f32⟩
  | 118 => ⟨S50000x1, .f32⟩
  | 119 => ⟨S50000x128, .f32⟩
  | 120 => ⟨S50000x128, .f32⟩
  | 121 => ⟨S50000x128, .f32⟩
  | 122 => ⟨S1x128, .f32⟩
  | 123 => ⟨S50000x128, .f32⟩
  | 124 => ⟨S50000x128, .f32⟩
  | 125 => ⟨S_, .f32⟩
  | 126 => ⟨S50000x128, .f32⟩
  | 127 => ⟨S50000x128, .f32⟩
  | _ => ⟨S50000x64, .f32⟩

abbrev hbmTy0_1 (i : Nat) : BufTy := match i % 128 with
  | 0 => ⟨S_, .f32⟩
  | 1 => ⟨S50000, .f32⟩
  | 2 => ⟨S_, .f32⟩
  | 3 => ⟨S500, .f32⟩
  | 4 => ⟨S50000x1, .i32⟩
  | 5 => ⟨S500, .f32⟩
  | 6 => ⟨S_, .f32⟩
  | 7 => ⟨S500x128, .f32⟩
  | 8 => ⟨S50000x1, .i32⟩
  | 9 => ⟨S500x128, .f32⟩
  | 10 => ⟨S_, .f32⟩
  | 11 => ⟨S500, .f32⟩
  | 12 => ⟨S500, .f32⟩
  | 13 => ⟨S500x1, .f32⟩
  | 14 => ⟨S500x128, .f32⟩
  | 15 => ⟨S500x128, .f32⟩
  | 16 => ⟨S_, .f32⟩
  | 17 => ⟨S50x128, .f32⟩
  | 18 => ⟨S_, .f32⟩
  | 19 => ⟨S50x128, .f32⟩
  | 20 => ⟨S50x128, .f32⟩
  | 21 => ⟨S500x128, .f32⟩
  | 22 => ⟨S_, .f32⟩
  | 23 => ⟨S500, .f32⟩
  | 24 => ⟨S500x1, .f32⟩
  | 25 => ⟨S50x128, .f32⟩
  | 26 => ⟨S_, .f32⟩
  | 27 => ⟨S50, .f32⟩
  | 28 => ⟨S1x50, .f32⟩
  | 29 => ⟨S500x50, .f32⟩
  | 30 => ⟨S500x50, .f32⟩
  | 31 => ⟨S500x50, .f32⟩
  | 32 => ⟨S_, .f32⟩
  | 33 => ⟨S500x128, .f32⟩
  | 34 => ⟨S500x128, .f32⟩
  | 35 => ⟨S128x50, .f32⟩
  | 36 => ⟨S500x50, .f32⟩
  | 37 => ⟨S500x50, .f32⟩
  | 38 => ⟨S_, .f32⟩
  | 39 => ⟨S500x50, .f32⟩
  | 40 => ⟨S500x50, .f32⟩
  | 41 => ⟨S_, .f32⟩
  | 42 => ⟨S500x50, .f32⟩
  | 43 => ⟨S500x50, .f32⟩
  | 44 => ⟨S_, .f32⟩
  | 45 => ⟨S500x50, .f32⟩
  | 46 => ⟨S500x50, .f32⟩
  | 47 => ⟨S500x50, .f32⟩
  | 48 => ⟨S500x50, .f32⟩
  | 49 => ⟨S50x10, .f32⟩
  | 50 => ⟨S500x10, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c : Ref sig .tc := ⟨.hbm, 25, rfl⟩
abbrev main_v11 : Ref sig .tc := ⟨.hbm, 26, rfl⟩
abbrev main_v12 : Ref sig .tc := ⟨.hbm, 27, rfl⟩
abbrev main_c_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_c_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_5 : Ref sig .tc := ⟨.hbm, 45, rfl⟩
abbrev main_v27 : Ref sig .tc := ⟨.hbm, 46, rfl⟩
abbrev main_v28 : Ref sig .tc := ⟨.hbm, 47, rfl⟩
abbrev main_c_6 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_7 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_call0_cst : Ref sig .tc := ⟨.hbm, 69, rfl⟩
abbrev main_call0_v0 : Ref sig .tc := ⟨.hbm, 70, rfl⟩
abbrev main_v48 : Ref sig .tc := ⟨.hbm, 71, rfl⟩
abbrev main_v49 : Ref sig .tc := ⟨.hbm, 72, rfl⟩
abbrev main_c_8 : Ref sig .tc := ⟨.hbm, 73, rfl⟩
abbrev main_v50 : Ref sig .tc := ⟨.hbm, 74, rfl⟩
abbrev main_v51 : Ref sig .tc := ⟨.hbm, 75, rfl⟩
abbrev main_c_9 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_10 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_call1_cst : Ref sig .tc := ⟨.hbm, 97, rfl⟩
abbrev main_call1_v0 : Ref sig .tc := ⟨.hbm, 98, rfl⟩
abbrev main_v71 : Ref sig .tc := ⟨.hbm, 99, rfl⟩
abbrev main_v72 : Ref sig .tc := ⟨.hbm, 100, rfl⟩
abbrev main_c_11 : Ref sig .tc := ⟨.hbm, 101, rfl⟩
abbrev main_v73 : Ref sig .tc := ⟨.hbm, 102, rfl⟩
abbrev main_v74 : Ref sig .tc := ⟨.hbm, 103, rfl⟩
abbrev main_c_12 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_cst_13 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_call2_cst : Ref sig .tc := ⟨.hbm, 125, rfl⟩
abbrev main_call2_v0 : Ref sig .tc := ⟨.hbm, 126, rfl⟩
abbrev main_v94 : Ref sig .tc := ⟨.hbm, 127, rfl⟩
abbrev main_cst_14 : Ref sig .tc := ⟨.hbm, 128, rfl⟩
abbrev main_v95 : Ref sig .tc := ⟨.hbm, 129, rfl⟩
abbrev main_cst_15 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_cst_16 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_cst_17 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_cst_18 : Ref sig .tc := ⟨.hbm, 144, rfl⟩
abbrev main_v107 : Ref sig .tc := ⟨.hbm, 145, rfl⟩
abbrev main_cst_19 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_cst_20 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_cst_21 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_cst_22 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_cst_23 : Ref sig .tc := ⟨.hbm, 166, rfl⟩
abbrev main_v124 : Ref sig .tc := ⟨.hbm, 167, rfl⟩
abbrev main_v125 : Ref sig .tc := ⟨.hbm, 168, rfl⟩
abbrev main_cst_24 : Ref sig .tc := ⟨.hbm, 169, rfl⟩
abbrev main_v126 : Ref sig .tc := ⟨.hbm, 170, rfl⟩
abbrev main_v127 : Ref sig .tc := ⟨.hbm, 171, rfl⟩
abbrev main_cst_25 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S500 : S_.BroadcastsInDim S500 (![] : Fin 0 → Fin S500.rank)
  bcast_S_S500x128 : S_.BroadcastsInDim S500x128 (![] : Fin 0 → Fin S500x128.rank)
  bcast_S500_S500x1_0 : S500.BroadcastsInDim S500x1 (![0] : Fin 1 → Fin S500x1.rank)
  bcast_S500x1_S500x128_0_1 : S500x1.BroadcastsInDim S500x128 (![0, 1] : Fin 2 → Fin S500x128.rank)
  reducesTo_S50x10x128_S50x128_d1 : S50x10x128.ReducesTo [1] S50x128
  h_S_ : 0 < S_.numel
  bcast_S_S50x128 : S_.BroadcastsInDim S50x128 (![] : Fin 0 → Fin S50x128.rank)
  reducesTo_S500x128_S500_d1 : S500x128.ReducesTo [1] S500
  reducesTo_S50x128_S50_d1 : S50x128.ReducesTo [1] S50
  bcast_S50_S1x50_1 : S50.BroadcastsInDim S1x50 (![1] : Fin 1 → Fin S1x50.rank)
  bcast_S500x1_S500x50_0_1 : S500x1.BroadcastsInDim S500x50 (![0, 1] : Fin 2 → Fin S500x50.rank)
  bcast_S1x50_S500x50_0_1 : S1x50.BroadcastsInDim S500x50 (![0, 1] : Fin 2 → Fin S500x50.rank)
  transposes_S50x128_S128x50_1_0 : S50x128.Transposes [1, 0] S128x50
  bcast_S_S500x50 : S_.BroadcastsInDim S500x50 (![] : Fin 0 → Fin S500x50.rank)
  transposes_S10x50_S50x10_1_0 : S10x50.Transposes [1, 0] S50x10
  scatter_S50000_S600000x1_S600000_n_0_0_1_wf : ScatterDims.WF S50000 S600000x1 S600000 [] [0] [0] 1
  gather_S50000_S600000x1_S600000_n_0_n_n_0_1_1_wf : GatherDims.WF S50000 S600000x1 S600000 [] [0] [] [0] [] 1 ![1]
  dot_S50000x64_S64x128_S50000x128_1_0_0_1_n_n_wf : DotDims.WF S50000x64 S64x128 S50000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []
  scatter_S500_S50000x1_S50000_n_0_0_1_wf : ScatterDims.WF S500 S50000x1 S50000 [] [0] [0] 1
  scatter_S500x128_S50000x1_S50000x128_1_0_0_1_wf : ScatterDims.WF S500x128 S50000x1 S50000x128 [1] [0] [0] 1
  dot_S500x128_S128x50_S500x50_1_0_0_1_n_n_wf : DotDims.WF S500x128 S128x50 S500x50 [1] [0] [0] [1] [] []
  dot_S500x50_S50x10_S500x10_1_0_0_1_n_n_wf : DotDims.WF S500x50 S50x10 S500x10 [1] [0] [0] [1] [] []

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000_S600000x1_S600000_n_0_n_n_0_1_1 : GatherDims S50000 S600000x1 S600000 where
  offsetDims := []
  collapsedSliceDims := [0]
  operandBatchingDims := []
  startIndicesBatchingDims := []
  startIndexMap := [0]
  indexVectorDim := 1
  sliceSizes := ![1]
  wf := gather_S50000_S600000x1_S600000_n_0_n_n_0_1_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S500_S50000x1_S50000_n_0_0_1 : ScatterDims S500 S50000x1 S50000 where
  updateWindowDims := []
  insertedWindowDims := [0]
  scatterDimsToOperandDims := [0]
  indexVectorDim := 1
  wf := scatter_S500_S50000x1_S50000_n_0_0_1_wf
def scatter_S500x128_S50000x1_S50000x128_1_0_0_1 : ScatterDims S500x128 S50000x1 S50000x128 where
  updateWindowDims := [1]
  insertedWindowDims := [0]
  scatterDimsToOperandDims := [0]
  indexVectorDim := 1
  wf := scatter_S500x128_S50000x1_S50000x128_1_0_0_1_wf
def dot_S500x128_S128x50_S500x50_1_0_0_1_n_n : DotDims S500x128 S128x50 S500x50 where
  lhsContracting := [1]
  rhsContracting := [0]
  lhsNonContracting := [0]
  rhsNonContracting := [1]
  lhsBatch := []
  rhsBatch := []
  wf := dot_S500x128_S128x50_S500x50_1_0_0_1_n_n_wf
def dot_S500x50_S50x10_S500x10_1_0_0_1_n_n : DotDims S500x50 S50x10 S500x10 where
  lhsContracting := [1]
  rhsContracting := [0]
  lhsNonContracting := [0]
  rhsNonContracting := [1]
  lhsBatch := []
  rhsBatch := []
  wf := dot_S500x50_S50x10_S500x10_1_0_0_1_n_n_wf

class Facts : Prop extends Facts₀ where

variable [Facts]
-- ==== Proof.KB.Lin0.lean ====
import proofs.«412905_j38783554683010_1_alg».proof.Proof.Gen.Kernel.Launch
import proofs.«412905_j38783554683010_1_alg».proof.Proof.Gen.Kernel.Skeleton
import proofs.«412905_j38783554683010_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window w's array that grid point t reads, as the region finds the array. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S5000x64 := Rect.unit (s := S5000x64) ![0, 0] S5000x64.size inb_S5000x64_S5000x64_0_0
abbrev r0_1 : Rect S64x128 := Rect.unit (s := S64x128) ![0, 0] S64x128.size inb_S64x128_S64x128_0_0
abbrev r0_2 : Rect S5000x128 := Rect.unit (s := S5000x128) ![0, 0] S5000x128.size inb_S5000x128_S5000x128_0_0

/-- What the body stores: the product of its two loaded blocks. -/
def out0_2 (x0 : Vec F S5000x64 .f32) (x1 : Vec F S64x128 .f32) : Vec F S5000x128 .f32 :=
  View.canon [⟨r0_2, k0_pay1 (View.ld x0 r0_0) (View.ld x1 r0_1)⟩]

theorem cover0_2 (p0 : Vec F S5000x128 .f32) (y : S5000x128.Idx) :
    ∃ pc ∈ ([⟨r0_2, p0⟩] : List (View.Piece (Elt F) S5000x128 .f32)), y ∈ pc.1.set :=
  View.cover_of_tiled [⟨r0_2, p0⟩] S5000x128.size (by rfl) y

set_option maxHeartbeats 1000000 in

/-- The body's triple: it leaves the input blocks as they were and the output block at their product. -/
theorem sound_kernel0 (c : Dev nD) (E : Set ℕ) (i : grid0.Coords) (arg1 : Memref sig .tc .vmem S5000x64 .f32) (harg1 : arg1.IsWhole)
    (arg2 : Memref sig .tc .vmem S64x128 .f32) (harg2 : arg2.IsWhole) (arg3 : Memref sig .tc .vmem S5000x128 .f32) (harg3 : arg3.IsWhole)
    (x0 : Vec F S5000x64 .f32) (x1 : Vec F S64x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The region's proof data: the arrays as found, each input block kept, the output block at the product. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  iframe H0 H1
  isplitl [H2]; · iexists _; iexact H2
  iintro ⟨H0, H1, H2⟩
  iframe

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KB.Self1.lean ====
import proofs.«412905_j38783554683010_1_alg».proof.Proof.Gen.Kernel.Launch
import proofs.«412905_j38783554683010_1_alg».proof.Proof.Gen.Kernel.Skeleton
import proofs.«412905_j38783554683010_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window w's array that grid point t reads, as the region finds the array. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S5000x128 := Rect.unit (s := S5000x128) ![0, 0] S5000x128.size inb_S5000x128_S5000x128_0_0
abbrev r1_2 : Rect S5000x1 := Rect.unit (s := S5000x1) ![0, 0] S5000x1.size inb_S5000x1_S5000x1_0_0
abbrev r1_3 : Rect S1x128 := Rect.unit (s := S1x128) ![0, 0] S1x128.size inb_S1x128_S1x128_0_0

/-- What the body stores: max((agg + hw · d) + b, 0) of its four loaded blocks. -/
def out1_4 (x0 x1 : Vec F S5000x128 .f32) (x2 : Vec F S5000x1 .f32) (x3 : Vec F S1x128 .f32) : Vec F S5000x128 .f32 :=
  View.canon [⟨r1_0, k1_pay1 (View.ld x0 r1_0) (View.ld x1 r1_0) (View.ld x2 r1_2) (View.ld x3 r1_3)⟩]

theorem cover1_4 (p0 : Vec F S5000x128 .f32) (y : S5000x128.Idx) :
    ∃ pc ∈ ([⟨r1_0, p0⟩] : List (View.Piece (Elt F) S5000x128 .f32)), y ∈ pc.1.set :=
  View.cover_of_tiled [⟨r1_0, p0⟩] S5000x128.size (by rfl) y

set_option maxHeartbeats 1000000 in

/-- The body's triple: it leaves the four input blocks as they were and the output block at that expression of them. -/
theorem sound_kernel1 (c : Dev nD) (E : Set ℕ) (i : grid1.Coords) (arg1 : Memref sig .tc .vmem S5000x128 .f32) (harg1 : arg1.IsWhole)
    (arg2 : Memref sig .tc .vmem S5000x128 .f32) (harg2 : arg2.IsWhole) (arg3 : Memref sig .tc .vmem S5000x1 .f32) (harg3 : arg3.IsWhole)
    (arg4 : Memref sig .tc .vmem S1x128 .f32) (harg4 : arg4.IsWhole) (arg5 : Memref sig .tc .vmem S5000x128 .f32) (harg5 : arg5.IsWhole)
    (x0 x1 : Vec F S5000x128 .f32) (x2 : Vec F S5000x1 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__selfloop_kernel i arg1 harg1 arg2 harg2 arg3 harg3 arg4 harg4 arg5 harg5) K := by
  simp only [cc1__selfloop_kernel_eq_skeleton]; unfold cc1__selfloop_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-- The region's proof data: the arrays as found, each input block kept, the output block at the expression. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl
theorem before1_3 (c : Dev nD) (t : Fin cfg1.N) (d) : (dat1 V c).before 3 t d = iblk1 V c 3 t :=
  ((dat1 V c).before_in_eq_fetched 3 rfl (fun _ => rfl) (fun _ _ _ => rfl) (fun _ => rfl) t d).trans rfl

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  iframe H0 H1 H2 H3
  isplitl [H4]; · iexists _; iexact H4
  iintro ⟨H0, H1, H2, H3, H4⟩
  iframe

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KB.Lin2.lean ====
import proofs.«412905_j38783554683010_1_alg».proof.Proof.Gen.Kernel.Launch
import proofs.«412905_j38783554683010_1_alg».proof.Proof.Gen.Kernel.Skeleton
import proofs.«412905_j38783554683010_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window w's array that grid point t reads, as the region finds the array. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S5000x128 := Rect.unit (s := S5000x128) ![0, 0] S5000x128.size inb_S5000x128_S5000x128_0_0
abbrev r2_1 : Rect S128x128 := Rect.unit (s := S128x128) ![0, 0] S128x128.size inb_S128x128_S128x128_0_0
abbrev r2_2 : Rect S5000x128 := Rect.unit (s := S5000x128) ![0, 0] S5000x128.size inb_S5000x128_S5000x128_0_0

/-- What the body stores: the product of its two loaded blocks. -/
def out2_2 (x0 : Vec F S5000x128 .f32) (x1 : Vec F S128x128 .f32) : Vec F S5000x128 .f32 :=
  View.canon [⟨r2_2, k2_pay1 (View.ld x0 r2_0) (View.ld x1 r2_1)⟩]

theorem cover2_2 (p0 : Vec F S5000x128 .f32) (y : S5000x128.Idx) :
    ∃ pc ∈ ([⟨r2_2, p0⟩] : List (View.Piece (Elt F) S5000x128 .f32)), y ∈ pc.1.set :=
  View.cover_of_tiled [⟨r2_2, p0⟩] S5000x128.size (by rfl) y

set_option maxHeartbeats 1000000 in

/-- The body's triple: it leaves the input blocks as they were and the output block at their product. -/
theorem sound_kernel2 (c : Dev nD) (E : Set ℕ) (i : grid2.Coords) (arg1 : Memref sig .tc .vmem S5000x128 .f32) (harg1 : arg1.IsWhole)
    (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__linear_kernel i arg1 harg1 arg2 harg2 arg3 harg3) K := by
  simp only [cc2__linear_kernel_eq_skeleton]; unfold cc2__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The region's proof data: the arrays as found, each input block kept, the output block at the product. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun _ => rfl) t d).trans rfl

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  iframe H0 H1
  isplitl [H2]; · iexists _; iexact H2
  iintro ⟨H0, H1, H2⟩
  iframe

theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KB.Self3.lean ====
import proofs.«412905_j38783554683010_1_alg».proof.Proof.Gen.Kernel.Launch
import proofs.«412905_j38783554683010_1_alg».proof.Proof.Gen.Kernel.Skeleton
import proofs.«412905_j38783554683010_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window w's array that grid point t reads, as the region finds the array. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S5000x128 := Rect.unit (s := S5000x128) ![0, 0] S5000x128.size inb_S5000x128_S5000x128_0_0
abbrev r3_2 : Rect S5000x1 := Rect.unit (s := S5000x1) ![0, 0] S5000x1.size inb_S5000x1_S5000x1_0_0
abbrev r3_3 : Rect S1x128 := Rect.unit (s := S1x128) ![0, 0] S1x128.size inb_S1x128_S1x128_0_0

/-- What the body stores: max((agg + hw · d) + b, 0) of its four loaded blocks. -/
def out3_4 (x0 x1 : Vec F S5000x128 .f32) (x2 : Vec F S5000x1 .f32) (x3 : Vec F S1x128 .f32) : Vec F S5000x128 .f32 :=
  View.canon [⟨r3_0, k3_pay1 (View.ld x0 r3_0) (View.ld x1 r3_0) (View.ld x2 r3_2) (View.ld x3 r3_3)⟩]

theorem cover3_4 (p0 : Vec F S5000x128 .f32) (y : S5000x128.Idx) :
    ∃ pc ∈ ([⟨r3_0, p0⟩] : List (View.Piece (Elt F) S5000x128 .f32)), y ∈ pc.1.set :=
  View.cover_of_tiled [⟨r3_0, p0⟩] S5000x128.size (by rfl) y

set_option maxHeartbeats 1000000 in

/-- The body's triple: it leaves the four input blocks as they were and the output block at that expression of them. -/
theorem sound_kernel3 (c : Dev nD) (E : Set ℕ) (i : grid3.Coords) (arg1 : Memref sig .tc .vmem S5000x128 .f32) (harg1 : arg1.IsWhole)
    (arg2 : Memref sig .tc .vmem S5000x128 .f32) (harg2 : arg2.IsWhole) (arg3 : Memref sig .tc .vmem S5000x1 .f32) (harg3 : arg3.IsWhole)
    (arg4 : Memref sig .tc .vmem S1x128 .f32) (harg4 : arg4.IsWhole) (arg5 : Memref sig .tc .vmem S5000x128 .f32) (harg5 : arg5.IsWhole)
    (x0 x1 : Vec F S5000x128 .f32) (x2 : Vec F S5000x1 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out3_4 x0 x1 x2 x3)) -∗ K ⟨⟩))
      ⊢ wp frame (wpE (defs₀ (F := F)) Variants.none c none) E (cc3__selfloop_kernel i arg1 harg1 arg2 harg2 arg3 harg3 arg4 harg4 arg5 harg5) K := by
  simp only [cc3__selfloop_kernel_eq_skeleton]; unfold cc3__selfloop_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3_4 _)

/-- The region's proof data: the arrays as found, each input block kept, the output block at the expression. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) :
    (dat3 V c).after 4 t = out3_4 (iblk3 V c 0 t) (iblk3 V c 1 t) (iblk3 V c 2 t) (iblk3 V c 3 t) := by dsimp only [dat3]

theorem before3_0 (c : Dev nD) (t : Fin cfg3.N) (d) : (dat3 V c).before 0 t d = iblk3 V c 0 t :=
  ((dat3 V c).before_in_eq_fetched 0 rfl (fun _ => rfl) (fun _ _ _ => rfl) (fun _ => rfl) t d).trans rfl
theorem before3_1 (c : Dev nD) (t : Fin cfg3.N) (d) : (dat3 V c).before 1 t d = iblk3 V c 1 t :=
  ((dat3 V c).before_in_eq_fetched 1 rfl (fun _ => rfl) (fun _ _ _ => rfl) (fun _ => rfl) t d).trans rfl
theorem before3_2 (c : Dev nD) (t : Fin cfg3.N) (d) : (dat3 V c).before 2 t d = iblk3 V c 2 t :=
  ((dat3 V c).before_in_eq_fetched 2 rfl (fun _ => rfl) (fun _ _ _ => rfl) (fun _ => rfl) t d).trans rfl
theorem before3_3 (c : Dev nD) (t : Fin cfg3.N) (d) : (dat3 V c).before 3 t d = iblk3 V c 3 t :=
  ((dat3 V c).before_in_eq_fetched 3 rfl (fun _ => rfl) (fun _ _ _ => rfl) (fun _ => rfl) t d).trans rfl

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _ (iblk3 V c 0 t) (iblk3 V c 1 t) (iblk3 V c 2 t) (iblk3 V c 3 t) _)
  iframe H0 H1 H2 H3
  isplitl [H4]; · iexists _; iexact H4
  iintro ⟨H0, H1, H2, H3, H4⟩
  iframe

theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.KB.Lin4.lean ====
import proofs.«412905_j38783554683010_1_alg».proof.Proof.Gen.Kernel.Launch
import proofs.«412905_j38783554683010_1_alg».proof.Proof.Gen.Kernel.Skeleton
import proofs.«412905_j38783554683010_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window w's array that grid point t reads, as the region finds the array. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_0 : Rect S5000x128 := Rect.unit (s := S5000x128) ![0, 0] S5000x128.size inb_S5000x128_S5000x128_0_0
abbrev r4_1 : Rect S128x128 := Rect.unit (s := S128x128) ![0, 0] S128x128.size inb_S128x128_S128x128_0_0
abbrev r4_2 : Rect S5000x128 := Rect.unit (s := S5000x128) ![0, 0] S5000x128.size inb_S5000x128_S5000x128_0_0

/-- What the body stores: the product of its two loaded blocks. -/
def out4_2 (x0 : Vec F S5000x128 .f32) (x1 : Vec F S128x128 .f32) : Vec F S5000x128 .f32 :=
  View.canon [⟨r4_2, k4_pay1 (View.ld x0 r4_0) (View.ld x1 r4_1)⟩]

theorem cover4_2 (p0 : Vec F S5000x128 .f32) (y : S5000x128.Idx) :
    ∃ pc ∈ ([⟨r4_2, p0⟩] : List (View.Piece (Elt F) S5000x128 .f32)), y ∈ pc.1.set :=
  View.cover_of_tiled [⟨r4_2, p0⟩] S5000x128.size (by rfl) y

set_option maxHeartbeats 1000000 in

/-- The body's triple: it leaves the input blocks as they were and the output block at their product. -/
theorem sound_kernel4 (c : Dev nD) (E : Set ℕ) (i : grid4.Coords) (arg1 : Memref sig .tc .vmem S5000x128 .f32) (harg1 : arg1.IsWhole)
    (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out4_2 x0 x1)) -∗ K ⟨⟩))
      ⊢ wp frame (wpE (defs₀ (F := F)) Variants.none c none) E (cc4__linear_kernel i arg1 harg1 arg2 harg2 arg3 harg3) K := by
  simp only [cc4__linear_kernel_eq_skeleton]; unfold cc4__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-- The region's proof data: the arrays as found, each input block kept, the output block at the product. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

theorem before4_0 (c : Dev nD) (t : Fin cfg4.N) (d) : (dat4 V c).before 0 t d = iblk4 V c 0 t :=
  ((dat4 V c).before_in_eq_fetched 0 rfl (fun _ => rfl) (fun _ _ _ => rfl) (fun _ => rfl) t d).trans rfl
theorem before4_1 (c : Dev nD) (t : Fin cfg4.N) (d) : (dat4 V c).before 1 t d = iblk4 V c 1 t :=
  ((dat4 V c).before_in_eq_fetched 1 rfl (fun _ => rfl) (fun _ _ _ => rfl) (fun _ => rfl) t d).trans rfl

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  iframe H0 H1
  isplitl [H2]; · iexists _; iexact H2
  iintro ⟨H0, H1, H2⟩
  iframe

theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.KB.Self5.lean ====
import proofs.«412905_j38783554683010_1_alg».proof.Proof.Gen.Kernel.Launch
import proofs.«412905_j38783554683010_1_alg».proof.Proof.Gen.Kernel.Skeleton
import proofs.«412905_j38783554683010_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window w's array that grid point t reads, as the region finds the array. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_0 : Rect S5000x128 := Rect.unit (s := S5000x128) ![0, 0] S5000x128.size inb_S5000x128_S5000x128_0_0
abbrev r5_2 : Rect S5000x1 := Rect.unit (s := S5000x1) ![0, 0] S5000x1.size inb_S5000x1_S5000x1_0_0
abbrev r5_3 : Rect S1x128 := Rect.unit (s := S1x128) ![0, 0] S1x128.size inb_S1x128_S1x128_0_0

/-- What the body stores: max((agg + hw · d) + b, 0) of its four loaded blocks. -/
def out5_4 (x0 x1 : Vec F S5000x128 .f32) (x2 : Vec F S5000x1 .f32) (x3 : Vec F S1x128 .f32) : Vec F S5000x128 .f32 :=
  View.canon [⟨r5_0, k5_pay1 (View.ld x0 r5_0) (View.ld x1 r5_0) (View.ld x2 r5_2) (View.ld x3 r5_3)⟩]

theorem cover5_4 (p0 : Vec F S5000x128 .f32) (y : S5000x128.Idx) :
    ∃ pc ∈ ([⟨r5_0, p0⟩] : List (View.Piece (Elt F) S5000x128 .f32)), y ∈ pc.1.set :=
  View.cover_of_tiled [⟨r5_0, p0⟩] S5000x128.size (by rfl) y

set_option maxHeartbeats 1000000 in

/-- The body's triple: it leaves the four input blocks as they were and the output block at that expression of them. -/
theorem sound_kernel5 (c : Dev nD) (E : Set ℕ) (i : grid5.Coords) (arg1 : Memref sig .tc .vmem S5000x128 .f32) (harg1 : arg1.IsWhole)
    (arg2 : Memref sig .tc .vmem S5000x128 .f32) (harg2 : arg2.IsWhole) (arg3 : Memref sig .tc .vmem S5000x1 .f32) (harg3 : arg3.IsWhole)
    (arg4 : Memref sig .tc .vmem S1x128 .f32) (harg4 : arg4.IsWhole) (arg5 : Memref sig .tc .vmem S5000x128 .f32) (harg5 : arg5.IsWhole)
    (x0 x1 : Vec F S5000x128 .f32) (x2 : Vec F S5000x1 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out5_4 x0 x1 x2 x3)) -∗ K ⟨⟩))
      ⊢ wp frame (wpE (defs₀ (F := F)) Variants.none c none) E (cc5__selfloop_kernel i arg1 harg1 arg2 harg2 arg3 harg3 arg4 harg4 arg5 harg5) K := by
  simp only [cc5__selfloop_kernel_eq_skeleton]; unfold cc5__selfloop_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover5_4 _)

/-- The region's proof data: the arrays as found, each input block kept, the output block at the expression. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => out5_4 (iblk5 V c 0 t) (iblk5 V c 1 t) (iblk5 V c 2 t) (iblk5 V c 3 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) :
    (dat5 V c).after 4 t = out5_4 (iblk5 V c 0 t) (iblk5 V c 1 t) (iblk5 V c 2 t) (iblk5 V c 3 t) := by dsimp only [dat5]

theorem before5_0 (c : Dev nD) (t : Fin cfg5.N) (d) : (dat5 V c).before 0 t d = iblk5 V c 0 t :=
  ((dat5 V c).before_in_eq_fetched 0 rfl (fun _ => rfl) (fun _ _ _ => rfl) (fun _ => rfl) t d).trans rfl
theorem before5_1 (c : Dev nD) (t : Fin cfg5.N) (d) : (dat5 V c).before 1 t d = iblk5 V c 1 t :=
  ((dat5 V c).before_in_eq_fetched 1 rfl (fun _ => rfl) (fun _ _ _ => rfl) (fun _ => rfl) t d).trans rfl
theorem before5_2 (c : Dev nD) (t : Fin cfg5.N) (d) : (dat5 V c).before 2 t d = iblk5 V c 2 t :=
  ((dat5 V c).before_in_eq_fetched 2 rfl (fun _ => rfl) (fun _ _ _ => rfl) (fun _ => rfl) t d).trans rfl
theorem before5_3 (c : Dev nD) (t : Fin cfg5.N) (d) : (dat5 V c).before 3 t d = iblk5 V c 3 t :=
  ((dat5 V c).before_in_eq_fetched 3 rfl (fun _ => rfl) (fun _ _ _ => rfl) (fun _ => rfl) t d).trans rfl

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3]
  rw [show (dat5 V c).Φ t.succ = (dat5 V c).Φ t.castSucc from rfl,
    show (dat5 V c).owesAt () t.succ = (dat5 V c).owesAt () t.castSucc from rfl,
    after5_0, after5_1, after5_2, after5_3, after5_4]
  iintro ⟨HΦ, Ho, ⟨%d0, H0⟩, ⟨%d1, H1⟩, ⟨%d2, H2⟩, ⟨%d3, H3⟩, ⟨%d4, H4⟩⟩
  iapply (sound_kernel5 c Set.univ _ _ _ _ _ _ _ _ _ _ _ (iblk5 V c 0 t) (iblk5 V c 1 t) (iblk5 V c 2 t) (iblk5 V c 3 t) _)
  iframe H0 H1 H2 H3
  isplitl [H4]; · iexists _; iexact H4
  iintro ⟨H0, H1, H2, H3, H4⟩
  iframe

theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.KB.Reg6Runs.lean ====
import proofs.«412905_j38783554683010_1_alg».proof.Proof.Gen.Kernel.Launch
import proofs.«412905_j38783554683010_1_alg».proof.Proof.Gen.Kernel.Skeleton
import proofs.«412905_j38783554683010_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body resets its accumulator exactly at the first of the ten grid points, -/
abbrev cond6_0 (i : grid6.Coords) : Prop := (Scalar.cmpi .ne (Scalar.extui (Scalar.cmpi .eq (BitVec.ofNat 32 (i 0).val) 0#32)) 0#32) = 1#1

theorem hcond6_0 : ∀ t : Fin cfg6.N, cond6_0 (grid6.coords t) ↔ t.val % 10 = 0 :=
  (by decide +kernel : ∀ t : Fin grid6.N, cond6_0 (grid6.coords t) ↔ t.val % 10 = 0)

/-- and stores the accumulator to the output block exactly at the last. -/
abbrev cond6_1 (i : grid6.Coords) : Prop := k6_cond2 i = 1#1

theorem hcond6_1 : ∀ t : Fin cfg6.N, cond6_1 (grid6.coords t) ↔ t.val % 10 = 9 :=
  (by decide +kernel : ∀ t : Fin grid6.N, cond6_1 (grid6.coords t) ↔ t.val % 10 = 9)

theorem liveAt6_0 : ∀ t : Fin cfg6.N, cfg6.idle 0 (grid6.coords t) = false := by decide +kernel

theorem liveAt6_1 : ∀ t : Fin cfg6.N, cfg6.idle 1 (grid6.coords t) = false := by decide +kernel

theorem idleAt6_2_A : ∀ t : Fin cfg6.N, cond6_0 (grid6.coords t) → ¬cond6_1 (grid6.coords t) → cfg6.idle 2 (grid6.coords t) = true := by decide +kernel

theorem noFlush6_2_A : ∀ t : Fin cfg6.N, cond6_0 (grid6.coords t) → ¬cond6_1 (grid6.coords t) → (cfg6.win 2).flush t = false := by decide +kernel

theorem idleAt6_2_B : ∀ t : Fin cfg6.N, ¬cond6_0 (grid6.coords t) → ¬cond6_1 (grid6.coords t) → cfg6.idle 2 (grid6.coords t) = true := by decide +kernel

theorem noFlush6_2_B : ∀ t : Fin cfg6.N, ¬cond6_0 (grid6.coords t) → ¬cond6_1 (grid6.coords t) → (cfg6.win 2).flush t = false := by decide +kernel

theorem liveAt6_2_C : ∀ t : Fin cfg6.N, ¬cond6_0 (grid6.coords t) → cond6_1 (grid6.coords t) → cfg6.idle 2 (grid6.coords t) = false := by decide +kernel

abbrev VO6_2 : View sig .tc .vmem S512x128 .f32 := (Memref.whole cc6_stg2_0 : Memref sig .tc .vmem S512x128 .f32).view

abbrev ms6_0 (t : Fin cfg6.N) : Memref sig .tc .vmem S5000x1 .i32 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S5000x128 .f32 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S512x128 .f32 := win6_2.stage (cfg6.slots t 2)
abbrev hs6_2 (t : Fin cfg6.N) : (ms6_2 t).IsWhole := hstage6_2 ((cfg6.slots t 2).cast nbuf6_2)

abbrev scM6_0 : Memref sig .tc .vmem S512x128 .f32 := Memref.whole cc6_scratch0

abbrev VS6_0 : View sig .tc .vmem S512x128 .f32 := scM6_0.view

theorem PhiA6_eq (c : Dev nD) :
    (Pipeline.ΦA spec6 c : sProp 𝕄)
      = iprop(iprop(iprop((∃ d, owns (c : Thread nD τ) scM6_0 fullShare d))
          ∗ Pipeline.scopedRestBut (Ix := Unit) (Name := ℕ) (U := UR sig nD τ) (Lvl := ℕ) (Val := Elt F) spec6 c [cc6_scratch0]) ∗ (∃ r, prngReg c r)) := by
  unfold Pipeline.ΦA; rw [scopedRest6_split]; simp only [scM6_0, owns_whole]; try rfl

section
variable (c : Dev nD) (i : grid6.Coords) (arg1 : Memref sig .tc .vmem S5000x1 .i32) (harg1 : arg1.IsWhole) (arg2 : Memref sig .tc .vmem S5000x128 .f32) (harg2 : arg2.IsWhole) (arg3 : Memref sig .tc .vmem S512x128 .f32) (harg3 : arg3.IsWhole) (arg4 : Memref sig .tc .vmem S512x128 .f32) (harg4 : arg4.IsWhole)

set_option maxHeartbeats 1000000 in

/-- The body at the first point: reset, then add this point's product to the accumulator. -/
noncomputable def kernelRun6_A (hc0 : cond6_0 i) (hc1 : ¬cond6_1 i)
    (x0 : Vec F S5000x1 .i32) (x1 : Vec F S5000x128 .f32) :
    Σ' (L2 : List (View.Piece (Elt F) S512x128 .f32)), { LS0 : List (View.Piece (Elt F) S512x128 .f32) //
      ∀ (xi2 : Vec F S512x128 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc6__readout_kernel i arg1 harg1 arg2 harg2 arg3 harg3 arg4 harg4) K } := by
  refine ⟨[], ?_, fun xi2 E K => ?run⟩
  case run =>
    simp only [cc6__readout_kernel_eq_skeleton]; unfold cc6__readout_kernel_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

set_option maxHeartbeats 1000000 in

/-- The body at a middle point: add this point's product to the accumulator. -/
noncomputable def kernelRun6_B (hc0 : ¬cond6_0 i) (hc1 : ¬cond6_1 i)
    (x0 : Vec F S5000x1 .i32) (x1 : Vec F S5000x128 .f32) (xs0 : Vec F S512x128 .f32) :
    Σ' (L2 : List (View.Piece (Elt F) S512x128 .f32)), { LS0 : List (View.Piece (Elt F) S512x128 .f32) //
      ∀ (xi2 : Vec F S512x128 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc6__readout_kernel i arg1 harg1 arg2 harg2 arg3 harg3 arg4 harg4) K } := by
  refine ⟨[], ?_, fun xi2 E K => ?run⟩
  case run =>
    simp only [cc6__readout_kernel_eq_skeleton]; unfold cc6__readout_kernel_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

set_option maxHeartbeats 1000000 in

/-- The body at the last point: add, then store the accumulator to the output block. -/
noncomputable def kernelRun6_C (hc0 : ¬cond6_0 i) (hc1 : cond6_1 i)
    (x0 : Vec F S5000x1 .i32) (x1 : Vec F S5000x128 .f32) (xs0 : Vec F S512x128 .f32) :
    Σ' (L2 : List (View.Piece (Elt F) S512x128 .f32)), { LS0 : List (View.Piece (Elt F) S512x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc6__readout_kernel i arg1 harg1 arg2 harg2 arg3 harg3 arg4 harg4) K } := by
  refine ⟨?_, ?_, fun E K => ?run⟩
  case run =>
    simp only [cc6__readout_kernel_eq_skeleton]; unfold cc6__readout_kernel_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

end

end Cert.Kernel.Hand

end
-- ==== Proof.KB.Reg6.lean ====
import proofs.«412905_j38783554683010_1_alg».proof.Proof.KB.Reg6Runs
import proofs.«412905_j38783554683010_1_alg».proof.Proof.Gen.Kernel.Launch
import proofs.«412905_j38783554683010_1_alg».proof.Proof.Gen.Kernel.Skeleton
import proofs.«412905_j38783554683010_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

section
variable (c : Dev nD) (i : grid6.Coords) (arg1 : Memref sig .tc .vmem S5000x1 .i32) (harg1 : arg1.IsWhole) (arg2 : Memref sig .tc .vmem S5000x128 .f32) (harg2 : arg2.IsWhole) (arg3 : Memref sig .tc .vmem S512x128 .f32) (harg3 : arg3.IsWhole) (arg4 : Memref sig .tc .vmem S512x128 .f32) (harg4 : arg4.IsWhole)

section
variable (hc0 : cond6_0 i) (hc1 : ¬cond6_1 i) (x0 : Vec F S5000x1 .i32) (x1 : Vec F S5000x128 .f32)

def out6_A_2 : Vec F S512x128 .f32 :=
  VO6_2.read (Elt F) (VO6_2.writes (Elt F) VO6_2.junk (kernelRun6_A c i arg1 harg1 arg2 harg2 arg3 harg3 arg4 harg4 hc0 hc1 x0 x1).1)

theorem scover6_A_0 (y : S512x128.Idx) :
    ∃ pc ∈ (kernelRun6_A c i arg1 harg1 arg2 harg2 arg3 harg3 arg4 harg4 hc0 hc1 x0 x1).2.1, y ∈ pc.1.set :=
  View.cover_of_tiledL (kernelRun6_A c i arg1 harg1 arg2 harg2 arg3 harg3 arg4 harg4 hc0 hc1 x0 x1).2.1 S512x128.size (by sl_kernel_rfl) y

def sout6_A_0 : Vec F S512x128 .f32 :=
  VS6_0.read (Elt F) (VS6_0.writes (Elt F) VS6_0.junk (kernelRun6_A c i arg1 harg1 arg2 harg2 arg3 harg3 arg4 harg4 hc0 hc1 x0 x1).2.1)

end

section
variable (hc0 : ¬cond6_0 i) (hc1 : ¬cond6_1 i) (x0 : Vec F S5000x1 .i32) (x1 : Vec F S5000x128 .f32) (xs0 : Vec F S512x128 .f32)

def out6_B_2 : Vec F S512x128 .f32 :=
  VO6_2.read (Elt F) (VO6_2.writes (Elt F) VO6_2.junk (kernelRun6_B c i arg1 harg1 arg2 harg2 arg3 harg3 arg4 harg4 hc0 hc1 x0 x1 xs0).1)

theorem scover6_B_0 (y : S512x128.Idx) :
    ∃ pc ∈ (kernelRun6_B c i arg1 harg1 arg2 harg2 arg3 harg3 arg4 harg4 hc0 hc1 x0 x1 xs0).2.1, y ∈ pc.1.set :=
  View.cover_of_tiledL (kernelRun6_B c i arg1 harg1 arg2 harg2 arg3 harg3 arg4 harg4 hc0 hc1 x0 x1 xs0).2.1 S512x128.size (by sl_kernel_rfl) y

def sout6_B_0 : Vec F S512x128 .f32 :=
  VS6_0.read (Elt F) (VS6_0.writes (Elt F) VS6_0.junk (kernelRun6_B c i arg1 harg1 arg2 harg2 arg3 harg3 arg4 harg4 hc0 hc1 x0 x1 xs0).2.1)

end

section
variable (hc0 : ¬cond6_0 i) (hc1 : cond6_1 i) (x0 : Vec F S5000x1 .i32) (x1 : Vec F S5000x128 .f32) (xs0 : Vec F S512x128 .f32)

theorem cover6_C_2 (y : S512x128.Idx) :
    ∃ pc ∈ (kernelRun6_C c i arg1 harg1 arg2 harg2 arg3 harg3 arg4 harg4 hc0 hc1 x0 x1 xs0).1, y ∈ pc.1.set :=
  View.cover_of_tiledL (kernelRun6_C c i arg1 harg1 arg2 harg2 arg3 harg3 arg4 harg4 hc0 hc1 x0 x1 xs0).1 S512x128.size (by sl_kernel_rfl) y

def out6_C_2 : Vec F S512x128 .f32 :=
  VO6_2.read (Elt F) (VO6_2.writes (Elt F) VO6_2.junk (kernelRun6_C c i arg1 harg1 arg2 harg2 arg3 harg3 arg4 harg4 hc0 hc1 x0 x1 xs0).1)

theorem scover6_C_0 (y : S512x128.Idx) :
    ∃ pc ∈ (kernelRun6_C c i arg1 harg1 arg2 harg2 arg3 harg3 arg4 harg4 hc0 hc1 x0 x1 xs0).2.1, y ∈ pc.1.set :=
  View.cover_of_tiledL (kernelRun6_C c i arg1 harg1 arg2 harg2 arg3 harg3 arg4 harg4 hc0 hc1 x0 x1 xs0).2.1 S512x128.size (by sl_kernel_rfl) y

def sout6_C_0 : Vec F S512x128 .f32 :=
  VS6_0.read (Elt F) (VS6_0.writes (Elt F) VS6_0.junk (kernelRun6_C c i arg1 harg1 arg2 harg2 arg3 harg3 arg4 harg4 hc0 hc1 x0 x1 xs0).2.1)

end

end

/-- The output block and the accumulator after grid point n, by the point's control case. -/
def outsAt6 (c : Dev nD) : (n : ℕ) → n < cfg6.N → Vec F S512x128 .f32 × Vec F S512x128 .f32
  | 0, hn => (out6_A_2 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) scM6_0 (Memref.isWhole_whole _) ((hcond6_0 ⟨0, hn⟩).mpr (Nat.zero_mod _)) (fun h => (fun h => by (try dsimp only at h); omega) ((hcond6_1 ⟨0, hn⟩).mp h)) (iblk6 V c 0 ⟨0, hn⟩) (iblk6 V c 1 ⟨0, hn⟩), sout6_A_0 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) scM6_0 (Memref.isWhole_whole _) ((hcond6_0 ⟨0, hn⟩).mpr (Nat.zero_mod _)) (fun h => (fun h => by (try dsimp only at h); omega) ((hcond6_1 ⟨0, hn⟩).mp h)) (iblk6 V c 0 ⟨0, hn⟩) (iblk6 V c 1 ⟨0, hn⟩))
  | n + 1, hn =>
    if h0 : (n + 1) % 10 = 0 then
      False.elim (by have hN : n + 1 < 10 := lt_of_lt_of_eq hn (show cfg6.N = 10 from N_6); omega)
    else
      if h1 : (n + 1) % 10 = 9 then
        (out6_C_2 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) scM6_0 (Memref.isWhole_whole _) (fun h => h0 ((hcond6_0 ⟨n + 1, hn⟩).mp h)) ((hcond6_1 ⟨n + 1, hn⟩).mpr h1) (iblk6 V c 0 ⟨n + 1, hn⟩) (iblk6 V c 1 ⟨n + 1, hn⟩) (outsAt6 c n (Nat.lt_of_succ_lt hn)).2, sout6_C_0 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) scM6_0 (Memref.isWhole_whole _) (fun h => h0 ((hcond6_0 ⟨n + 1, hn⟩).mp h)) ((hcond6_1 ⟨n + 1, hn⟩).mpr h1) (iblk6 V c 0 ⟨n + 1, hn⟩) (iblk6 V c 1 ⟨n + 1, hn⟩) (outsAt6 c n (Nat.lt_of_succ_lt hn)).2)
      else
        (out6_B_2 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) scM6_0 (Memref.isWhole_whole _) (fun h => h0 ((hcond6_0 ⟨n + 1, hn⟩).mp h)) (fun h => h1 ((hcond6_1 ⟨n + 1, hn⟩).mp h)) (iblk6 V c 0 ⟨n + 1, hn⟩) (iblk6 V c 1 ⟨n + 1, hn⟩) (outsAt6 c n (Nat.lt_of_succ_lt hn)).2, sout6_B_0 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) scM6_0 (Memref.isWhole_whole _) (fun h => h0 ((hcond6_0 ⟨n + 1, hn⟩).mp h)) (fun h => h1 ((hcond6_1 ⟨n + 1, hn⟩).mp h)) (iblk6 V c 0 ⟨n + 1, hn⟩) (iblk6 V c 1 ⟨n + 1, hn⟩) (outsAt6 c n (Nat.lt_of_succ_lt hn)).2)

theorem outsAt6_A (c : Dev nD) (t : Fin cfg6.N) (h0 : t.val % 10 = 0) (h1 : ¬t.val % 10 = 9) :
    outsAt6 V c t.val t.isLt = (out6_A_2 c (grid6.coords t) (ms6_0 t) (hs6_0 t) (ms6_1 t) (hs6_1 t) (ms6_2 t) (hs6_2 t) scM6_0 (Memref.isWhole_whole _) ((hcond6_0 t).mpr h0) (fun h => h1 ((hcond6_1 t).mp h)) (iblk6 V c 0 t) (iblk6 V c 1 t), sout6_A_0 c (grid6.coords t) (ms6_0 t) (hs6_0 t) (ms6_1 t) (hs6_1 t) (ms6_2 t) (hs6_2 t) scM6_0 (Memref.isWhole_whole _) ((hcond6_0 t).mpr h0) (fun h => h1 ((hcond6_1 t).mp h)) (iblk6 V c 0 t) (iblk6 V c 1 t)) := by
  obtain ⟨n, hn⟩ := t
  cases n with
  | zero => exact rfl
  | succ n => exact (by exfalso; (try dsimp only at h0); have hN : n + 1 < 10 := lt_of_lt_of_eq hn (show cfg6.N = 10 from N_6); omega)

theorem outsAt6_B (c : Dev nD) (t : Fin cfg6.N) (h0 : ¬t.val % 10 = 0) (h1 : ¬t.val % 10 = 9) :
    outsAt6 V c t.val t.isLt = (out6_B_2 c (grid6.coords t) (ms6_0 t) (hs6_0 t) (ms6_1 t) (hs6_1 t) (ms6_2 t) (hs6_2 t) scM6_0 (Memref.isWhole_whole _) (fun h => h0 ((hcond6_0 t).mp h)) (fun h => h1 ((hcond6_1 t).mp h)) (iblk6 V c 0 t) (iblk6 V c 1 t) (outsAt6 V c (t.val - 1) (Nat.lt_of_le_of_lt (Nat.sub_le _ _) t.isLt)).2, sout6_B_0 c (grid6.coords t) (ms6_0 t) (hs6_0 t) (ms6_1 t) (hs6_1 t) (ms6_2 t) (hs6_2 t) scM6_0 (Memref.isWhole_whole _) (fun h => h0 ((hcond6_0 t).mp h)) (fun h => h1 ((hcond6_1 t).mp h)) (iblk6 V c 0 t) (iblk6 V c 1 t) (outsAt6 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt6_C (c : Dev nD) (t : Fin cfg6.N) (h0 : ¬t.val % 10 = 0) (h1 : t.val % 10 = 9) :
    outsAt6 V c t.val t.isLt = (out6_C_2 c (grid6.coords t) (ms6_0 t) (hs6_0 t) (ms6_1 t) (hs6_1 t) (ms6_2 t) (hs6_2 t) scM6_0 (Memref.isWhole_whole _) (fun h => h0 ((hcond6_0 t).mp h)) ((hcond6_1 t).mpr h1) (iblk6 V c 0 t) (iblk6 V c 1 t) (outsAt6 V c (t.val - 1) (Nat.lt_of_le_of_lt (Nat.sub_le _ _) t.isLt)).2, sout6_C_0 c (grid6.coords t) (ms6_0 t) (hs6_0 t) (ms6_1 t) (hs6_1 t) (ms6_2 t) (hs6_2 t) scM6_0 (Memref.isWhole_whole _) (fun h => h0 ((hcond6_0 t).mp h)) ((hcond6_1 t).mpr h1) (iblk6 V c 0 t) (iblk6 V c 1 t) (outsAt6 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- Between grid points the invariant carries the accumulator at what the previous point left in it. -/
def PhiS6 (c : Dev nD) : (n : ℕ) → n ≤ cfg6.N → sProp 𝕄
  | 0, _ => Pipeline.ΦA spec6 c
  | n + 1, hn => iprop(iprop(iprop(owns (c : Thread nD τ) scM6_0 fullShare ((outsAt6 V c n hn).2)) ∗ Pipeline.scopedRestBut (Ix := Unit) (Name := ℕ) (U := UR sig nD τ) (Lvl := ℕ) (Val := Elt F) spec6 c [cc6_scratch0]) ∗ (∃ r, prngReg c r))

theorem PhiS6_zero (c : Dev nD) (n : ℕ) (h : n ≤ cfg6.N) (hz : n = 0) : PhiS6 V c n h = Pipeline.ΦA spec6 c := by
  subst hz; rfl

theorem PhiS6_succ (c : Dev nD) (n : ℕ) (hn : n < cfg6.N) :
    PhiS6 V c (n + 1) hn = iprop(iprop(iprop(owns (c : Thread nD τ) scM6_0 fullShare ((outsAt6 V c n hn).2)) ∗ Pipeline.scopedRestBut (Ix := Unit) (Name := ℕ) (U := UR sig nD τ) (Lvl := ℕ) (Val := Elt F) spec6 c [cc6_scratch0]) ∗ (∃ r, prngReg c r)) := rfl

theorem PhiS6_pos (c : Dev nD) (n : ℕ) (h : n ≤ cfg6.N) (hz : n ≠ 0) :
    PhiS6 V c n h = iprop(iprop(iprop(owns (c : Thread nD τ) scM6_0 fullShare ((outsAt6 V c (n - 1) (by omega)).2)) ∗ Pipeline.scopedRestBut (Ix := Unit) (Name := ℕ) (U := UR sig nD τ) (Lvl := ℕ) (Val := Elt F) spec6 c [cc6_scratch0]) ∗ (∃ r, prngReg c r)) := by
  cases n with
  | zero => exact absurd rfl hz
  | succ n => rfl

/-- The region's proof data: inputs kept, the output block and the invariant as the three cases leave them. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => (outsAt6 V c t.val t.isLt).1
  Φ t := PhiS6 V c t.val (Nat.le_of_lt_succ t.isLt)
  q _ := fullShare
  owed _ := 0

theorem A_eq6 (c : Dev nD) (w : Fin cfg6.W) : (dat6 V c).A w = V c (Pipeline.arrRef spec6 w) := by
  dsimp only [dat6]

theorem PhiS6_castSucc (c : Dev nD) (t : Fin cfg6.N) :
    (dat6 V c).Φ t.castSucc = PhiS6 V c t.val (Nat.le_of_lt t.isLt) := by
  dsimp only [dat6]; simp only [Fin.coe_castSucc]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = (outsAt6 V c t.val t.isLt).1 := by dsimp only [dat6]

theorem before6_0 (c : Dev nD) (t : Fin cfg6.N) (d) : (dat6 V c).before 0 t d = iblk6 V c 0 t :=
  ((dat6 V c).before_in_eq_fetched 0 rfl (fun _ => rfl) (fun _ _ _ => rfl) (fun _ => rfl) t d).trans rfl
theorem before6_1 (c : Dev nD) (t : Fin cfg6.N) (d) : (dat6 V c).before 1 t d = iblk6 V c 1 t :=
  ((dat6 V c).before_in_eq_fetched 1 rfl (fun _ => rfl) (fun _ _ _ => rfl) (fun _ => rfl) t d).trans rfl

def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d)))

def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t)

set_option maxHeartbeats 4800000 in

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).owesAt () t.succ = (dat6 V c).owesAt () t.castSucc from rfl]
  rw [show (dat6 V c).Φ t.succ = PhiS6 V c (t.val + 1) t.isLt from rfl, PhiS6_succ]
  have hN : t.val < 10 := lt_of_lt_of_eq t.isLt (show cfg6.N = 10 from N_6)
  by_cases h0 : t.val % 10 = 0
  · by_cases h1 : t.val % 10 = 9
    · exfalso; omega
    · rw [show (dat6 V c).leavesExact 0 t = owns (c : Thread nD τ) (ms6_0 t) fullShare ((dat6 V c).after 0 t) from by
        unfold Dat.leavesExact; rw [liveAt6_0 t], after6_0]
      rw [show (dat6 V c).leavesExact 1 t = owns (c : Thread nD τ) (ms6_1 t) fullShare ((dat6 V c).after 1 t) from by
        unfold Dat.leavesExact; rw [liveAt6_1 t], after6_1]
      rw [Dat.leavesExact_idle (dat6 V c) 2 t (idleAt6_2_A t ((hcond6_0 t).mpr h0) (fun h => h1 ((hcond6_1 t).mp h))) (noFlush6_2_A t ((hcond6_0 t).mpr h0) (fun h => h1 ((hcond6_1 t).mp h)))]
      rw [outsAt6_A V c t h0 h1]
      unfold sout6_A_0; (try dsimp only)
      have hz : t.val = 0 := by omega
      rw [PhiS6_castSucc V c t, PhiS6_zero V c _ _ hz, PhiA6_eq]
      iintro ⟨⟨⟨HS0, HR⟩, Hg⟩, Ho, ⟨%d0, H0⟩, ⟨%d1, H1⟩, ⟨%d2, H2⟩⟩
      iapply ((kernelRun6_A c (grid6.coords t) _ _ _ _ _ _ _ _ ((hcond6_0 t).mpr h0) (fun h => h1 ((hcond6_1 t).mp h)) (iblk6 V c 0 t) (iblk6 V c 1 t)).2.2 _ Set.univ _)
      iframe H0 H1 H2 HS0
      iintro ⟨H0, H1, H2, ⟨%es0, HS0⟩⟩
      iframe HR Hg Ho H0 H1
      isplitl [HS0]
      · unfold owns; iexists _; isplitr
        swap; · iexact HS0
        ipureintro; exact View.read_writes_of_cover _ _ _ _ _ (scover6_A_0 c _ _ _ _ _ _ _ _ _ _ _ _ _)
      iexists _; iexact H2
  · have hz : t.val ≠ 0 := by omega
    by_cases h1 : t.val % 10 = 9
    · rw [show (dat6 V c).leavesExact 0 t = owns (c : Thread nD τ) (ms6_0 t) fullShare ((dat6 V c).after 0 t) from by
        unfold Dat.leavesExact; rw [liveAt6_0 t], after6_0]
      rw [show (dat6 V c).leavesExact 1 t = owns (c : Thread nD τ) (ms6_1 t) fullShare ((dat6 V c).after 1 t) from by
        unfold Dat.leavesExact; rw [liveAt6_1 t], after6_1]
      rw [show (dat6 V c).leavesExact 2 t = owns (c : Thread nD τ) (ms6_2 t) fullShare ((dat6 V c).after 2 t) from by
        unfold Dat.leavesExact; rw [liveAt6_2_C t (fun h => h0 ((hcond6_0 t).mp h)) ((hcond6_1 t).mpr h1)], after6_2]
      rw [outsAt6_C V c t h0 h1]
      unfold out6_C_2 sout6_C_0; (try dsimp only)
      rw [PhiS6_castSucc V c t, PhiS6_pos V c _ _ hz]
      iintro ⟨⟨⟨HS0, HR⟩, Hg⟩, Ho, ⟨%d0, H0⟩, ⟨%d1, H1⟩, ⟨%d2, H2⟩⟩
      iapply ((kernelRun6_C c (grid6.coords t) _ _ _ _ _ _ _ _ (fun h => h0 ((hcond6_0 t).mp h)) ((hcond6_1 t).mpr h1) (iblk6 V c 0 t) (iblk6 V c 1 t) _).2.2 Set.univ _)
      iframe H0 H1 HS0
      isplitl [H2]; · iexists _; iexact H2
      iintro ⟨H0, H1, ⟨%e2, H2⟩, ⟨%es0, HS0⟩⟩
      iframe HR Hg Ho H0 H1
      isplitl [HS0]
      · unfold owns; iexists _; isplitr
        swap; · iexact HS0
        ipureintro; exact View.read_writes_of_cover _ _ _ _ _ (scover6_C_0 c _ _ _ _ _ _ _ _ _ _ _ _ _ _)
      unfold owns; iexists _; isplitr
      swap; · iexact H2
      ipureintro; exact View.read_writes_of_cover _ _ _ _ _ (cover6_C_2 c _ _ _ _ _ _ _ _ _ _ _ _ _ _)
    · rw [show (dat6 V c).leavesExact 0 t = owns (c : Thread nD τ) (ms6_0 t) fullShare ((dat6 V c).after 0 t) from by
        unfold Dat.leavesExact; rw [liveAt6_0 t], after6_0]
      rw [show (dat6 V c).leavesExact 1 t = owns (c : Thread nD τ) (ms6_1 t) fullShare ((dat6 V c).after 1 t) from by
        unfold Dat.leavesExact; rw [liveAt6_1 t], after6_1]
      rw [Dat.leavesExact_idle (dat6 V c) 2 t (idleAt6_2_B t (fun h => h0 ((hcond6_0 t).mp h)) (fun h => h1 ((hcond6_1 t).mp h))) (noFlush6_2_B t (fun h => h0 ((hcond6_0 t).mp h)) (fun h => h1 ((hcond6_1 t).mp h)))]
      rw [outsAt6_B V c t h0 h1]
      unfold sout6_B_0; (try dsimp only)
      rw [PhiS6_castSucc V c t, PhiS6_pos V c _ _ hz]
      iintro ⟨⟨⟨HS0, HR⟩, Hg⟩, Ho, ⟨%d0, H0⟩, ⟨%d1, H1⟩, ⟨%d2, H2⟩⟩
      iapply ((kernelRun6_B c (grid6.coords t) _ _ _ _ _ _ _ _ (fun h => h0 ((hcond6_0 t).mp h)) (fun h => h1 ((hcond6_1 t).mp h)) (iblk6 V c 0 t) (iblk6 V c 1 t) _).2.2 _ Set.univ _)
      iframe H0 H1 H2 HS0
      iintro ⟨H0, H1, H2, ⟨%es0, HS0⟩⟩
      iframe HR Hg Ho H0 H1
      isplitl [HS0]
      · unfold owns; iexists _; isplitr
        swap; · iexact HS0
        ipureintro; exact View.read_writes_of_cover _ _ _ _ _ (scover6_B_0 c _ _ _ _ _ _ _ _ _ _ _ _ _ _)
      iexists _; iexact H2

theorem body_obligation6 (c : Dev nD) : BodyObligation (dat6 (F := F) V c) (defs₀ (F := F)) Variants.none () Set.univ := fun t => by
  rw [bigSep_W6, bigSep_W6]
  exact sound_body6 V c t

theorem hin6 (c : Dev nD) : Pipeline.ΦA spec6 c ⊢ (dat6 V c).Φ 0 := by
  rw [show (dat6 V c).Φ 0 = PhiS6 V c 0 (Nat.zero_le _) from rfl, PhiS6_zero V c 0 _ rfl]
  try exact Idealize.SL.BI.Entails.refl _

theorem Phi_out6 (c : Dev nD) (t : Fin (cfg6.N + 1)) (ht : t.val ≠ 0) : (dat6 V c).Φ t ⊢ Pipeline.ΦA spec6 c := by
  rw [show (dat6 V c).Φ t = PhiS6 V c t.val (Nat.le_of_lt_succ t.isLt) from rfl, PhiS6_pos V c _ _ ht, PhiA6_eq]
  iintro ⟨⟨HS0, HR⟩, Hg⟩
  isplitl [HS0 HR]
  · isplitl [HS0]
    · iexists _; iexact HS0
    iexact HR
  iexact Hg

theorem hout6 (c : Dev nD) : (dat6 V c).Φ (Fin.last cfg6.N) ⊢ Pipeline.ΦA spec6 c :=
  Phi_out6 V c _ (by rw [Fin.val_last]; have : cfg6.N = 10 := N_6; omega)

end Cert.Kernel.Hand

end
-- ==== Proof.KB.Plain.lean ====
import proofs.«412905_j38783554683010_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev Lz : GSem nD τ sig → Finset Unit := fun _ => ∅
abbrev lvz : GSem nD τ sig → Unit → ℕ := fun _ _ => 0
abbrev Rst (c : Dev nD) : sProp 𝕄 := iprop((∃ r, prngReg c r) ∗ ∃ W, owes (c : Thread nD τ) (0 : CellTallies nD τ sig Unit) W)

/-- A region rewrites only its output arrays: any other buffer, an input array included, is as the region found it. -/
theorem withArrays_kept {cfg : Cfg sig Λ₀} {c : Dev nD} (dat : Dat τ (Elt F) Unit ℕ (UR sig nD τ) ℕ cfg c)
    (hinj : Function.Injective (Pipeline.arrRef cfg.spec)) (V : Valuation τ sig (Elt F))
    (hA : ∀ w, dat.A w = V (Proc.devRef .tc (Pipeline.arrRef cfg.spec w))) (b : Ref sig .tc)
    (hb : ∀ w, Pipeline.arrRef cfg.spec w = b → (cfg.win w).isOut = false) :
    Pipeline.withArrays cfg.spec c V (fun w => dat.arrAt w cfg.N) (Proc.devRef .tc b) = V (Proc.devRef .tc b) := by
  by_cases h : ∃ w, Pipeline.arrRef cfg.spec w = b
  · obtain ⟨w, rfl⟩ := h
    rw [Pipeline.withArrays_arr cfg.spec hinj c V _ w, dat.arrAt_in w (hb w rfl), hA]
  · exact Pipeline.withArrays_of_ne cfg.spec c V _ b fun w e => h ⟨w, e⟩

variable (pd : (p : Fin 7) → (c : Dev nD) → Dat τ (Elt F) Unit ℕ (UR sig nD τ) ℕ (cfgs p) c)

set_option backward.isDefEq.respectTransparency.types false in
/-- A kernel region as an item of the run: entered with every buffer at WE, it is left with its arrays at their final
    contents and every other buffer as entered. -/
def plainReg {p : Fin 7} (L : Pipeline.LaunchFacts (nD := nD) (τ := τ) cfgs p) (WE : Dev nD → Valuation τ sig (Elt F))
    (hq : ∀ c w, (pd p c).q w = fullShare) (howed : ∀ c t, (pd p c).owed t = 0) (hrec : ∀ c t, (pd p c).recorded t = Set.univ)
    (hA : ∀ c w, (pd p c).A w = WE c (Proc.devRef .tc (Pipeline.arrRef (cfgs p).spec w)))
    (hbody : ∀ c, Pipeline.BodyObligationLoose (pd p c) defs₀ Variants.none () Set.univ)
    (hΦi : ∀ c, Pipeline.ΦA (cfgs p).spec c ⊢ (pd p c).Φ 0)
    (hΦo : ∀ c, (pd p c).Φ (Fin.last _) ⊢ Pipeline.ΦA (cfgs p).spec c) :
    Pipeline.RegionSeg (pcfgs (F := F)) adm pd () defs₀ Variants.none Lz lvz p where
  win := L.win.to₀
  block_pos := L.block_pos
  stage_whole := L.stage_whole
  K := PEmpty
  osem k := k.elim
  ho := Pipeline.OwnSemFacts.none _
  hbody := hbody
  hwaits := Pipeline.hwaits_of_owed_zero _ _ _ _ Lz lvz p howed
  pre c := iprop(StableHlo.held (c : Thread nD τ) (Pipeline.ucRefs τ sig) (WE c) ∗ Rst c)
  post c := iprop(StableHlo.held (c : Thread nD τ) (Pipeline.ucRefs τ sig)
    (Pipeline.withArrays (cfgs p).spec c (WE c) fun w => (pd p c).arrAt w (cfgs p).N) ∗ Rst c)
  X c := iprop(∃ r, prngReg c r)
  Y c := iprop(∃ r, prngReg c r)
  Z c := Pipeline.unscopedRest (Ix := Unit) (Name := ℕ) (U := UR sig nD τ) (Lvl := ℕ) (cfgs p).spec c fun b => WE c b
  hentry c := by
    rw [Pipeline.ownSems0_none]
    have hsplit := Pipeline.arrays_of_unscopedBufs (p := p) (pcfgs (F := F)) adm pd L.win L.arr_whole c
      ((pd p c).share_full (hq c)) (fun b => WE c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c 0]
      icases HO with ⟨%W, HO⟩; iexists W; isplitr; · ipureintro; exact fun _ _ => Or.inl (hrec c 0 ▸ trivial)
      iexact HO
    isplitl [Hp]; · iexact Hp
    iexact Hrest
  hin c := by
    refine .trans ?_ (hΦi c)
    unfold Pipeline.ΦA
    iintro ⟨Hp, -, Hr⟩
    isplitl [Hr]; · iexact Hr
    iexact Hp
  hout c := by
    rw [Pipeline.ownSems0_none]
    refine (hΦo c).trans ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      L.win L.arr_whole c pd ((pd p c).share_full (hq c)) (fun b => WE c b)
      (fun b => Pipeline.withArrays (cfgs p).spec c (WE c) (fun w => (pd p c).arrAt w (cfgs p).N) b) ((pd p c).arrAt · (cfgs p).N)
      (fun w => (Pipeline.withArrays_arr (cfgs p).spec L.win.arr_inj c (WE c) (fun w => (pd p c).arrAt w (cfgs p).N) w).symm)
      (fun b hb => Pipeline.withArrays_of_ne (cfgs p).spec c _ _ b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c (Fin.last _)]
    icases HO with ⟨%W, -, HO⟩; iexists W; iexact HO

end Cert.Kernel.Hand

end
-- ==== Proof.KB.RunDefs.lean ====
import proofs.«412905_j38783554683010_1_alg».proof.Proof.KB.Lin0
import proofs.«412905_j38783554683010_1_alg».proof.Proof.KB.Self1
import proofs.«412905_j38783554683010_1_alg».proof.Proof.KB.Lin2
import proofs.«412905_j38783554683010_1_alg».proof.Proof.KB.Self3
import proofs.«412905_j38783554683010_1_alg».proof.Proof.KB.Lin4
import proofs.«412905_j38783554683010_1_alg».proof.Proof.KB.Self5
import proofs.«412905_j38783554683010_1_alg».proof.Proof.KB.Reg6
import proofs.«412905_j38783554683010_1_alg».proof.Proof.KB.Plain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core c's buffers at launch; WEk and WXk are its buffers when region k is entered and left. -/
abbrev W0 : Dev nD → Valuation τ sig (Elt F) := fun c b => (s₀ m ρ).mem ((c : Dev nD), b)

abbrev WE0 : Dev nD → Valuation τ sig (Elt F) := fun c => StableHlo.after hostOps0 (W0 m ρ c)
abbrev UE0 : (c : Dev nD) → (b : Ref sig .tc) → Buf (Elt F) ((c : Thread nD τ).loc b) := fun c b => WE0 m ρ c b
def WX0 (c : Dev nD) : Valuation τ sig (Elt F) :=
  Pipeline.withArrays spec0 c (WE0 m ρ c) fun w => (dat0 (UE0 m ρ) c).arrAt w cfg0.N
theorem WX0_arr (c : Dev nD) (w : Fin cfg0.W) :
    WX0 m ρ c (Proc.devRef .tc (Pipeline.arrRef spec0 w)) = (dat0 (UE0 m ρ) c).arrAt w cfg0.N :=
  Pipeline.withArrays_arr spec0 launch0.win.arr_inj c _ _ w

abbrev WE1 : Dev nD → Valuation τ sig (Elt F) := fun c => StableHlo.after hostOps1 (WX0 m ρ c)
abbrev UE1 : (c : Dev nD) → (b : Ref sig .tc) → Buf (Elt F) ((c : Thread nD τ).loc b) := fun c b => WE1 m ρ c b
def WX1 (c : Dev nD) : Valuation τ sig (Elt F) :=
  Pipeline.withArrays spec1 c (WE1 m ρ c) fun w => (dat1 (UE1 m ρ) c).arrAt w cfg1.N
theorem WX1_arr (c : Dev nD) (w : Fin cfg1.W) :
    WX1 m ρ c (Proc.devRef .tc (Pipeline.arrRef spec1 w)) = (dat1 (UE1 m ρ) c).arrAt w cfg1.N :=
  Pipeline.withArrays_arr spec1 launch1.win.arr_inj c _ _ w

abbrev WE2 : Dev nD → Valuation τ sig (Elt F) := fun c => WX1 m ρ c
abbrev UE2 : (c : Dev nD) → (b : Ref sig .tc) → Buf (Elt F) ((c : Thread nD τ).loc b) := fun c b => WE2 m ρ c b
def WX2 (c : Dev nD) : Valuation τ sig (Elt F) :=
  Pipeline.withArrays spec2 c (WE2 m ρ c) fun w => (dat2 (UE2 m ρ) c).arrAt w cfg2.N
theorem WX2_arr (c : Dev nD) (w : Fin cfg2.W) :
    WX2 m ρ c (Proc.devRef .tc (Pipeline.arrRef spec2 w)) = (dat2 (UE2 m ρ) c).arrAt w cfg2.N :=
  Pipeline.withArrays_arr spec2 launch2.win.arr_inj c _ _ w

abbrev WE3 : Dev nD → Valuation τ sig (Elt F) := fun c => StableHlo.after hostOps3 (WX2 m ρ c)
abbrev UE3 : (c : Dev nD) → (b : Ref sig .tc) → Buf (Elt F) ((c : Thread nD τ).loc b) := fun c b => WE3 m ρ c b
def WX3 (c : Dev nD) : Valuation τ sig (Elt F) :=
  Pipeline.withArrays spec3 c (WE3 m ρ c) fun w => (dat3 (UE3 m ρ) c).arrAt w cfg3.N
theorem WX3_arr (c : Dev nD) (w : Fin cfg3.W) :
    WX3 m ρ c (Proc.devRef .tc (Pipeline.arrRef spec3 w)) = (dat3 (UE3 m ρ) c).arrAt w cfg3.N :=
  Pipeline.withArrays_arr spec3 launch3.win.arr_inj c _ _ w

abbrev WE4 : Dev nD → Valuation τ sig (Elt F) := fun c => WX3 m ρ c
abbrev UE4 : (c : Dev nD) → (b : Ref sig .tc) → Buf (Elt F) ((c : Thread nD τ).loc b) := fun c b => WE4 m ρ c b
def WX4 (c : Dev nD) : Valuation τ sig (Elt F) :=
  Pipeline.withArrays spec4 c (WE4 m ρ c) fun w => (dat4 (UE4 m ρ) c).arrAt w cfg4.N
theorem WX4_arr (c : Dev nD) (w : Fin cfg4.W) :
    WX4 m ρ c (Proc.devRef .tc (Pipeline.arrRef spec4 w)) = (dat4 (UE4 m ρ) c).arrAt w cfg4.N :=
  Pipeline.withArrays_arr spec4 launch4.win.arr_inj c _ _ w

abbrev WE5 : Dev nD → Valuation τ sig (Elt F) := fun c => StableHlo.after hostOps5 (WX4 m ρ c)
abbrev UE5 : (c : Dev nD) → (b : Ref sig .tc) → Buf (Elt F) ((c : Thread nD τ).loc b) := fun c b => WE5 m ρ c b
def WX5 (c : Dev nD) : Valuation τ sig (Elt F) :=
  Pipeline.withArrays spec5 c (WE5 m ρ c) fun w => (dat5 (UE5 m ρ) c).arrAt w cfg5.N
theorem WX5_arr (c : Dev nD) (w : Fin cfg5.W) :
    WX5 m ρ c (Proc.devRef .tc (Pipeline.arrRef spec5 w)) = (dat5 (UE5 m ρ) c).arrAt w cfg5.N :=
  Pipeline.withArrays_arr spec5 launch5.win.arr_inj c _ _ w

abbrev WE6 : Dev nD → Valuation τ sig (Elt F) := fun c => StableHlo.after hostOps6 (WX5 m ρ c)
abbrev UE6 : (c : Dev nD) → (b : Ref sig .tc) → Buf (Elt F) ((c : Thread nD τ).loc b) := fun c b => WE6 m ρ c b
def WX6 (c : Dev nD) : Valuation τ sig (Elt F) :=
  Pipeline.withArrays spec6 c (WE6 m ρ c) fun w => (dat6 (UE6 m ρ) c).arrAt w cfg6.N
theorem WX6_arr (c : Dev nD) (w : Fin cfg6.W) :
    WX6 m ρ c (Proc.devRef .tc (Pipeline.arrRef spec6 w)) = (dat6 (UE6 m ρ) c).arrAt w cfg6.N :=
  Pipeline.withArrays_arr spec6 launch6.win.arr_inj c _ _ w

abbrev WEnd : Dev nD → Valuation τ sig (Elt F) := fun c => StableHlo.after hostOps7 (WX6 m ρ c)

def pdats : (p : Fin 7) → (c : Dev nD) → Dat τ (Elt F) Unit ℕ (UR sig nD τ) ℕ (cfgs p) c
  | ⟨0, _⟩ => fun c => dat0 (UE0 m ρ) c
  | ⟨1, _⟩ => fun c => dat1 (UE1 m ρ) c
  | ⟨2, _⟩ => fun c => dat2 (UE2 m ρ) c
  | ⟨3, _⟩ => fun c => dat3 (UE3 m ρ) c
  | ⟨4, _⟩ => fun c => dat4 (UE4 m ρ) c
  | ⟨5, _⟩ => fun c => dat5 (UE5 m ρ) c
  | ⟨6, _⟩ => fun c => dat6 (UE6 m ρ) c

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none Lz lvz :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tn (c : Dev nD) : sProp 𝕄 := iprop(StableHlo.held (c : Thread nD τ) (Pipeline.ucRefs τ sig) (WEnd m ρ c) ∗ ∃ r, prngReg c r)

/-- The buffers at the fourteen boundaries of the run: at launch, then after each of the thirteen items of @main. -/
def Wb : ℕ → Dev nD → Valuation τ sig (Elt F)
  | 0 => W0 m ρ | 1 => WE0 m ρ | 2 => WX0 m ρ | 3 => WE1 m ρ | 4 => WX1 m ρ | 5 => WX2 m ρ | 6 => WE3 m ρ
  | 7 => WX3 m ρ | 8 => WX4 m ρ | 9 => WE5 m ρ | 10 => WX5 m ρ | 11 => WE6 m ρ | 12 => WX6 m ρ | _ => WEnd m ρ

/-- Item k leaves the buffer b alone: host operations do not write it; a region does not have it as an output array. -/
def leaves (b : Ref sig .tc) : ℕ → Bool
  | 0 => decide (b ∉ hostOps0_W)
  | 1 => decide (∀ w, Pipeline.arrRef cfg0.spec w = b → (cfg0.win w).isOut = false)
  | 2 => decide (b ∉ hostOps1_W)
  | 3 => decide (∀ w, Pipeline.arrRef cfg1.spec w = b → (cfg1.win w).isOut = false)
  | 4 => decide (∀ w, Pipeline.arrRef cfg2.spec w = b → (cfg2.win w).isOut = false)
  | 5 => decide (b ∉ hostOps3_W)
  | 6 => decide (∀ w, Pipeline.arrRef cfg3.spec w = b → (cfg3.win w).isOut = false)
  | 7 => decide (∀ w, Pipeline.arrRef cfg4.spec w = b → (cfg4.win w).isOut = false)
  | 8 => decide (b ∉ hostOps5_W)
  | 9 => decide (∀ w, Pipeline.arrRef cfg5.spec w = b → (cfg5.win w).isOut = false)
  | 10 => decide (b ∉ hostOps6_W)
  | 11 => decide (∀ w, Pipeline.arrRef cfg6.spec w = b → (cfg6.win w).isOut = false)
  | 12 => decide (b ∉ hostOps7_W)
  | _ => true

theorem step (c : Dev nD) (b : Ref sig .tc) : ∀ k, leaves b k = true →
    Wb m ρ (k + 1) c (Proc.devRef .tc b) = Wb m ρ k c (Proc.devRef .tc b)
  | 0, h => StableHlo.after_of_writes_sub hostOps0 _ hostOps0_writes (of_decide_eq_true h)
  | 1, h => withArrays_kept (dat0 (UE0 m ρ) c) launch0.win.arr_inj _ (A_eq0 (UE0 m ρ) c) b (of_decide_eq_true h)
  | 2, h => StableHlo.after_of_writes_sub hostOps1 _ hostOps1_writes (of_decide_eq_true h)
  | 3, h => withArrays_kept (dat1 (UE1 m ρ) c) launch1.win.arr_inj _ (A_eq1 (UE1 m ρ) c) b (of_decide_eq_true h)
  | 4, h => withArrays_kept (dat2 (UE2 m ρ) c) launch2.win.arr_inj _ (A_eq2 (UE2 m ρ) c) b (of_decide_eq_true h)
  | 5, h => StableHlo.after_of_writes_sub hostOps3 _ hostOps3_writes (of_decide_eq_true h)
  | 6, h => withArrays_kept (dat3 (UE3 m ρ) c) launch3.win.arr_inj _ (A_eq3 (UE3 m ρ) c) b (of_decide_eq_true h)
  | 7, h => withArrays_kept (dat4 (UE4 m ρ) c) launch4.win.arr_inj _ (A_eq4 (UE4 m ρ) c) b (of_decide_eq_true h)
  | 8, h => StableHlo.after_of_writes_sub hostOps5 _ hostOps5_writes (of_decide_eq_true h)
  | 9, h => withArrays_kept (dat5 (UE5 m ρ) c) launch5.win.arr_inj _ (A_eq5 (UE5 m ρ) c) b (of_decide_eq_true h)
  | 10, h => StableHlo.after_of_writes_sub hostOps6 _ hostOps6_writes (of_decide_eq_true h)
  | 11, h => withArrays_kept (dat6 (UE6 m ρ) c) launch6.win.arr_inj _ (A_eq6 (UE6 m ρ) c) b (of_decide_eq_true h)
  | 12, h => StableHlo.after_of_writes_sub hostOps7 _ hostOps7_writes (of_decide_eq_true h)
  | _ + 13, _ => rfl

/-- A buffer that every item between boundaries i and j leaves alone holds at j what it held at i. -/
theorem span (c : Dev nD) (b : Ref sig .tc) (i j : ℕ) (h : ∀ k, k < j → i ≤ k → leaves b k = true) (hij : i ≤ j) :
    Wb m ρ j c (Proc.devRef .tc b) = Wb m ρ i c (Proc.devRef .tc b) := by
  induction j, hij using Nat.le_induction with
  | base => rfl
  | succ j hij ih => exact (step m ρ c b j (h j j.lt_succ_self hij)).trans (ih fun k h1 h2 => h k (Nat.lt_succ_of_lt h1) h2)

end Cert.Kernel.Hand

end
-- ==== Proof.KB.Run.lean ====
import proofs.«412905_j38783554683010_1_alg».proof.Proof.KB.RunDefs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The thirteen items of @main in order. -/
abbrev hsegs : List (Pipeline.Seg (pcfgs (F := F)) adm (pdats m ρ) () defs₀ Variants.none Lz lvz) :=
  [ .host (hseg hostOps0 hostOps0_sub hostOps0_fresh (W0 m ρ)),
    .region (plainReg (pdats m ρ) launch0 (WE0 m ρ) (fun _ _ => rfl) (fun _ _ => rfl) (fun _ _ => rfl) (fun _ _ => rfl)
      (fun c => (body_obligation0 (UE0 m ρ) c).loose) (fun _ => .rfl) (fun _ => .rfl)),
    .host (hseg hostOps1 hostOps1_sub hostOps1_fresh (WX0 m ρ)),
    .region (plainReg (pdats m ρ) launch1 (WE1 m ρ) (fun _ _ => rfl) (fun _ _ => rfl) (fun _ _ => rfl) (fun _ _ => rfl)
      (fun c => (body_obligation1 (UE1 m ρ) c).loose) (fun _ => .rfl) (fun _ => .rfl)),
    .region (plainReg (pdats m ρ) launch2 (WE2 m ρ) (fun _ _ => rfl) (fun _ _ => rfl) (fun _ _ => rfl) (fun _ _ => rfl)
      (fun c => (body_obligation2 (UE2 m ρ) c).loose) (fun _ => .rfl) (fun _ => .rfl)),
    .host (hseg hostOps3 hostOps3_sub hostOps3_fresh (WX2 m ρ)),
    .region (plainReg (pdats m ρ) launch3 (WE3 m ρ) (fun _ _ => rfl) (fun _ _ => rfl) (fun _ _ => rfl) (fun _ _ => rfl)
      (fun c => (body_obligation3 (UE3 m ρ) c).loose) (fun _ => .rfl) (fun _ => .rfl)),
    .region (plainReg (pdats m ρ) launch4 (WE4 m ρ) (fun _ _ => rfl) (fun _ _ => rfl) (fun _ _ => rfl) (fun _ _ => rfl)
      (fun c => (body_obligation4 (UE4 m ρ) c).loose) (fun _ => .rfl) (fun _ => .rfl)),
    .host (hseg hostOps5 hostOps5_sub hostOps5_fresh (WX4 m ρ)),
    .region (plainReg (pdats m ρ) launch5 (WE5 m ρ) (fun _ _ => rfl) (fun _ _ => rfl) (fun _ _ => rfl) (fun _ _ => rfl)
      (fun c => (body_obligation5 (UE5 m ρ) c).loose) (fun _ => .rfl) (fun _ => .rfl)),
    .host (hseg hostOps6 hostOps6_sub hostOps6_fresh (WX5 m ρ)),
    .region (plainReg (pdats m ρ) launch6 (WE6 m ρ) (fun _ _ => rfl) (fun _ _ => rfl) (fun _ _ => rfl) (fun _ _ => rfl)
      (fun c => (body_obligation6 (UE6 m ρ) c).loose) (hin6 (UE6 m ρ)) (hout6 (UE6 m ρ))),
    .host (hseg hostOps7 hostOps7_sub hostOps7_fresh (WX6 m ρ)) ]

set_option backward.isDefEq.respectTransparency.types false in
/-- Every weakly fair execution terminates, and every final memory holds each buffer at its last contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = WEnd m ρ c b) :=
  Pipeline.θ_run_regions_kit (pcfgs (F := F)) adm (pdats m ρ) () cellOf_inj emb₁ defs₀ Variants.none Lz lvz m ρ main (hsegs m ρ)
    (fun c Q => by
      rewrite [main_chain c, Pipeline.Seg.run_eq_chain,
        show (hsegs m ρ).map Pipeline.Seg.prog = [
          StableHlo.seq hostOps0,
          Prog.lift (.customCall (Pipeline.entry 0) ()),
          StableHlo.seq hostOps1,
          Prog.lift (.customCall (Pipeline.entry 1) ()),
          Prog.lift (.customCall (Pipeline.entry 2) ()),
          StableHlo.seq hostOps3,
          Prog.lift (.customCall (Pipeline.entry 3) ()),
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7 ] from rfl]
      exact .rfl)
    (by simp only [hsegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Rst c)) (Tₙ := Tn m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl,
      fun c => by
        show iprop(StableHlo.held (c : Thread nD τ) (Pipeline.ucRefs τ sig) (WEnd m ρ c) ∗ (∃ r, prngReg c r) ∗ ∃ W, owes (c : Thread nD τ) (0 : CellTallies nD τ sig Unit) W)
          ⊢ iprop((StableHlo.held (c : Thread nD τ) (Pipeline.ucRefs τ sig) (WEnd m ρ c) ∗ ∃ r, prngReg c r) ∗ ∃ W, owes (c : Thread nD τ) (0 : CellTallies nD τ sig Unit) W)
        iintro ⟨Hh, Hp, Ho⟩
        isplitl [Hh Hp]
        · isplitl [Hh]; · iexact Hh
          iexact Hp
        iexact Ho⟩)
    (hinit := by
      refine Pipeline.initEach Lz lvz fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = WEnd m ρ c b)
    (hfin := fun c s' => by
      iintro ⟨⟨Hh, -⟩, HSI⟩
      unfold StableHlo.held
      imodintro
      iapply (pointsTo_read_all (Pipeline.ucRefs τ sig) (fun b => (((c : Thread nD τ)).1, b)) (WEnd m ρ c) s')
      isplitl [Hh] <;> iassumption)
    (hQ := fun s h => h)

/-- A buffer no item writes ends as launched. -/
theorem end_kept {mem : (ℓ : Loc nD τ sig) → Buf (Elt F) ℓ} {c : Dev nD} (h : ∀ b ∈ Pipeline.ucRefs τ sig, mem (((c : Thread nD τ)).1, b) = WEnd m ρ c b)
    (b : Ref sig .tc) (hu : ¬ (Proc.devRef .tc b : DevRef τ sig).isScoped) (hk : ∀ k, k < 13 → 0 ≤ k → leaves b k = true) :
    mem ((c.tc : Thread nD τ).loc b) = m ((c.tc : Thread nD τ).loc b) :=
  (h _ (mem_uc b hu)).trans (span m ρ c b 0 13 hk (by decide))

/-- Every argument array holds in mem what it held at launch. -/
def argsKept (mem : (ℓ : Loc nD τ sig) → Buf (Elt F) ℓ) (c : Dev nD) : Prop :=
  mem ((c.tc : Thread nD τ).loc main_arg0) = m ((c.tc : Thread nD τ).loc main_arg0)
  ∧ mem ((c.tc : Thread nD τ).loc main_arg1) = m ((c.tc : Thread nD τ).loc main_arg1)
  ∧ mem ((c.tc : Thread nD τ).loc main_arg2) = m ((c.tc : Thread nD τ).loc main_arg2)
  ∧ mem ((c.tc : Thread nD τ).loc main_arg3) = m ((c.tc : Thread nD τ).loc main_arg3)
  ∧ mem ((c.tc : Thread nD τ).loc main_arg4) = m ((c.tc : Thread nD τ).loc main_arg4)
  ∧ mem ((c.tc : Thread nD τ).loc main_arg5) = m ((c.tc : Thread nD τ).loc main_arg5)
  ∧ mem ((c.tc : Thread nD τ).loc main_arg6) = m ((c.tc : Thread nD τ).loc main_arg6)
  ∧ mem ((c.tc : Thread nD τ).loc main_arg7) = m ((c.tc : Thread nD τ).loc main_arg7)
  ∧ mem ((c.tc : Thread nD τ).loc main_arg8) = m ((c.tc : Thread nD τ).loc main_arg8)
  ∧ mem ((c.tc : Thread nD τ).loc main_arg9) = m ((c.tc : Thread nD τ).loc main_arg9)
  ∧ mem ((c.tc : Thread nD τ).loc main_arg10) = m ((c.tc : Thread nD τ).loc main_arg10)

/-- Every final memory holds the result buffer at the last contents and each argument array as launched. -/
theorem run_res : θ_run defs (onTc (τ := τ) (main (F := F))) ⟨m, fun _ => 0, ρ⟩ (fun r => ∀ c : Dev nD,
      r.2.mem ((c.tc : Thread nD τ).loc main_v114) = WEnd m ρ c (Proc.devRef .tc main_v114) ∧ argsKept m r.2.mem c) :=
  (θ_run defs _ _).mono (fun r h c =>
    ⟨h c _ (mem_uc main_v114 (by decide)),
     end_kept m ρ (h c) main_arg0 (by decide) (by decide),
     end_kept m ρ (h c) main_arg1 (by decide) (by decide),
     end_kept m ρ (h c) main_arg2 (by decide) (by decide),
     end_kept m ρ (h c) main_arg3 (by decide) (by decide),
     end_kept m ρ (h c) main_arg4 (by decide) (by decide),
     end_kept m ρ (h c) main_arg5 (by decide) (by decide),
     end_kept m ρ (h c) main_arg6 (by decide) (by decide),
     end_kept m ρ (h c) main_arg7 (by decide) (by decide),
     end_kept m ρ (h c) main_arg8 (by decide) (by decide),
     end_kept m ρ (h c) main_arg9 (by decide) (by decide),
     end_kept m ρ (h c) main_arg10 (by decide) (by decide)⟩) (run_all m ρ)

theorem frame : θ_run defs (onTc (τ := τ) (main (F := F))) ⟨m, fun _ => 0, ρ⟩ (fun r => ∀ c : Dev nD, argsKept m r.2.mem c) :=
  (θ_run defs _ _).mono (fun _ h c => (h c).2) (run_res m ρ)

end Cert.Kernel.Hand

end
-- ==== Proof.KI.Lin0.lean ====
import proofs.«412905_j38783554683010_1_alg».proof.Proof.Gen.KernelIdeal.Launch
import proofs.«412905_j38783554683010_1_alg».proof.Proof.Gen.KernelIdeal.Skeleton
import proofs.«412905_j38783554683010_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window w's array that grid point t reads, as the region finds the array. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S5000x64 := Rect.unit (s := S5000x64) ![0, 0] S5000x64.size inb_S5000x64_S5000x64_0_0
abbrev r0_1 : Rect S64x128 := Rect.unit (s := S64x128) ![0, 0] S64x128.size inb_S64x128_S64x128_0_0
abbrev r0_2 : Rect S5000x128 := Rect.unit (s := S5000x128) ![0, 0] S5000x128.size inb_S5000x128_S5000x128_0_0

/-- What the body stores: the product of its two loaded blocks. -/
def out0_2 (x0 : Vec F S5000x64 .f32) (x1 : Vec F S64x128 .f32) : Vec F S5000x128 .f32 :=
  View.canon [⟨r0_2, k0_pay1 (View.ld x0 r0_0) (View.ld x1 r0_1)⟩]

theorem cover0_2 (p0 : Vec F S5000x128 .f32) (y : S5000x128.Idx) :
    ∃ pc ∈ ([⟨r0_2, p0⟩] : List (View.Piece (Elt F) S5000x128 .f32)), y ∈ pc.1.set :=
  View.cover_of_tiled [⟨r0_2, p0⟩] S5000x128.size (by rfl) y

set_option maxHeartbeats 1000000 in

/-- The body's triple: it leaves the input blocks as they were and the output block at their product. -/
theorem sound_kernel0 (c : Dev nD) (E : Set ℕ) (i : grid0.Coords) (arg1 : Memref sig .tc .vmem S5000x64 .f32) (harg1 : arg1.IsWhole)
    (arg2 : Memref sig .tc .vmem S64x128 .f32) (harg2 : arg2.IsWhole) (arg3 : Memref sig .tc .vmem S5000x128 .f32) (harg3 : arg3.IsWhole)
    (x0 : Vec F S5000x64 .f32) (x1 : Vec F S64x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The region's proof data: the arrays as found, each input block kept, the output block at the product. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  iframe H0 H1
  isplitl [H2]; · iexists _; iexact H2
  iintro ⟨H0, H1, H2⟩
  iframe

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Self1.lean ====
import proofs.«412905_j38783554683010_1_alg».proof.Proof.Gen.KernelIdeal.Launch
import proofs.«412905_j38783554683010_1_alg».proof.Proof.Gen.KernelIdeal.Skeleton
import proofs.«412905_j38783554683010_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window w's array that grid point t reads, as the region finds the array. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S5000x128 := Rect.unit (s := S5000x128) ![0, 0] S5000x128.size inb_S5000x128_S5000x128_0_0
abbrev r1_2 : Rect S5000x1 := Rect.unit (s := S5000x1) ![0, 0] S5000x1.size inb_S5000x1_S5000x1_0_0
abbrev r1_3 : Rect S1x128 := Rect.unit (s := S1x128) ![0, 0] S1x128.size inb_S1x128_S1x128_0_0

/-- What the body stores: max((agg + hw · d) + b, 0) of its four loaded blocks. -/
def out1_4 (x0 x1 : Vec F S5000x128 .f32) (x2 : Vec F S5000x1 .f32) (x3 : Vec F S1x128 .f32) : Vec F S5000x128 .f32 :=
  View.canon [⟨r1_0, k1_pay1 (View.ld x0 r1_0) (View.ld x1 r1_0) (View.ld x2 r1_2) (View.ld x3 r1_3)⟩]

theorem cover1_4 (p0 : Vec F S5000x128 .f32) (y : S5000x128.Idx) :
    ∃ pc ∈ ([⟨r1_0, p0⟩] : List (View.Piece (Elt F) S5000x128 .f32)), y ∈ pc.1.set :=
  View.cover_of_tiled [⟨r1_0, p0⟩] S5000x128.size (by rfl) y

set_option maxHeartbeats 1000000 in

/-- The body's triple: it leaves the four input blocks as they were and the output block at that expression of them. -/
theorem sound_kernel1 (c : Dev nD) (E : Set ℕ) (i : grid1.Coords) (arg1 : Memref sig .tc .vmem S5000x128 .f32) (harg1 : arg1.IsWhole)
    (arg2 : Memref sig .tc .vmem S5000x128 .f32) (harg2 : arg2.IsWhole) (arg3 : Memref sig .tc .vmem S5000x1 .f32) (harg3 : arg3.IsWhole)
    (arg4 : Memref sig .tc .vmem S1x128 .f32) (harg4 : arg4.IsWhole) (arg5 : Memref sig .tc .vmem S5000x128 .f32) (harg5 : arg5.IsWhole)
    (x0 x1 : Vec F S5000x128 .f32) (x2 : Vec F S5000x1 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__selfloop_kernel i arg1 harg1 arg2 harg2 arg3 harg3 arg4 harg4 arg5 harg5) K := by
  simp only [cc1__selfloop_kernel_eq_skeleton]; unfold cc1__selfloop_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-- The region's proof data: the arrays as found, each input block kept, the output block at the expression. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl
theorem before1_3 (c : Dev nD) (t : Fin cfg1.N) (d) : (dat1 V c).before 3 t d = iblk1 V c 3 t :=
  ((dat1 V c).before_in_eq_fetched 3 rfl (fun _ => rfl) (fun _ _ _ => rfl) (fun _ => rfl) t d).trans rfl

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  iframe H0 H1 H2 H3
  isplitl [H4]; · iexists _; iexact H4
  iintro ⟨H0, H1, H2, H3, H4⟩
  iframe

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Lin2.lean ====
import proofs.«412905_j38783554683010_1_alg».proof.Proof.Gen.KernelIdeal.Launch
import proofs.«412905_j38783554683010_1_alg».proof.Proof.Gen.KernelIdeal.Skeleton
import proofs.«412905_j38783554683010_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window w's array that grid point t reads, as the region finds the array. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S5000x128 := Rect.unit (s := S5000x128) ![0, 0] S5000x128.size inb_S5000x128_S5000x128_0_0
abbrev r2_1 : Rect S128x128 := Rect.unit (s := S128x128) ![0, 0] S128x128.size inb_S128x128_S128x128_0_0
abbrev r2_2 : Rect S5000x128 := Rect.unit (s := S5000x128) ![0, 0] S5000x128.size inb_S5000x128_S5000x128_0_0

/-- What the body stores: the product of its two loaded blocks. -/
def out2_2 (x0 : Vec F S5000x128 .f32) (x1 : Vec F S128x128 .f32) : Vec F S5000x128 .f32 :=
  View.canon [⟨r2_2, k2_pay1 (View.ld x0 r2_0) (View.ld x1 r2_1)⟩]

theorem cover2_2 (p0 : Vec F S5000x128 .f32) (y : S5000x128.Idx) :
    ∃ pc ∈ ([⟨r2_2, p0⟩] : List (View.Piece (Elt F) S5000x128 .f32)), y ∈ pc.1.set :=
  View.cover_of_tiled [⟨r2_2, p0⟩] S5000x128.size (by rfl) y

set_option maxHeartbeats 1000000 in

/-- The body's triple: it leaves the input blocks as they were and the output block at their product. -/
theorem sound_kernel2 (c : Dev nD) (E : Set ℕ) (i : grid2.Coords) (arg1 : Memref sig .tc .vmem S5000x128 .f32) (harg1 : arg1.IsWhole)
    (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__linear_kernel i arg1 harg1 arg2 harg2 arg3 harg3) K := by
  simp only [cc2__linear_kernel_eq_skeleton]; unfold cc2__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The region's proof data: the arrays as found, each input block kept, the output block at the product. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun _ => rfl) t d).trans rfl

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  iframe H0 H1
  isplitl [H2]; · iexists _; iexact H2
  iintro ⟨H0, H1, H2⟩
  iframe

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Self3.lean ====
import proofs.«412905_j38783554683010_1_alg».proof.Proof.Gen.KernelIdeal.Launch
import proofs.«412905_j38783554683010_1_alg».proof.Proof.Gen.KernelIdeal.Skeleton
import proofs.«412905_j38783554683010_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window w's array that grid point t reads, as the region finds the array. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S5000x128 := Rect.unit (s := S5000x128) ![0, 0] S5000x128.size inb_S5000x128_S5000x128_0_0
abbrev r3_2 : Rect S5000x1 := Rect.unit (s := S5000x1) ![0, 0] S5000x1.size inb_S5000x1_S5000x1_0_0
abbrev r3_3 : Rect S1x128 := Rect.unit (s := S1x128) ![0, 0] S1x128.size inb_S1x128_S1x128_0_0

/-- What the body stores: max((agg + hw · d) + b, 0) of its four loaded blocks. -/
def out3_4 (x0 x1 : Vec F S5000x128 .f32) (x2 : Vec F S5000x1 .f32) (x3 : Vec F S1x128 .f32) : Vec F S5000x128 .f32 :=
  View.canon [⟨r3_0, k3_pay1 (View.ld x0 r3_0) (View.ld x1 r3_0) (View.ld x2 r3_2) (View.ld x3 r3_3)⟩]

theorem cover3_4 (p0 : Vec F S5000x128 .f32) (y : S5000x128.Idx) :
    ∃ pc ∈ ([⟨r3_0, p0⟩] : List (View.Piece (Elt F) S5000x128 .f32)), y ∈ pc.1.set :=
  View.cover_of_tiled [⟨r3_0, p0⟩] S5000x128.size (by rfl) y

set_option maxHeartbeats 1000000 in

/-- The body's triple: it leaves the four input blocks as they were and the output block at that expression of them. -/
theorem sound_kernel3 (c : Dev nD) (E : Set ℕ) (i : grid3.Coords) (arg1 : Memref sig .tc .vmem S5000x128 .f32) (harg1 : arg1.IsWhole)
    (arg2 : Memref sig .tc .vmem S5000x128 .f32) (harg2 : arg2.IsWhole) (arg3 : Memref sig .tc .vmem S5000x1 .f32) (harg3 : arg3.IsWhole)
    (arg4 : Memref sig .tc .vmem S1x128 .f32) (harg4 : arg4.IsWhole) (arg5 : Memref sig .tc .vmem S5000x128 .f32) (harg5 : arg5.IsWhole)
    (x0 x1 : Vec F S5000x128 .f32) (x2 : Vec F S5000x1 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out3_4 x0 x1 x2 x3)) -∗ K ⟨⟩))
      ⊢ wp frame (wpE (defs₀ (F := F)) Variants.none c none) E (cc3__selfloop_kernel i arg1 harg1 arg2 harg2 arg3 harg3 arg4 harg4 arg5 harg5) K := by
  simp only [cc3__selfloop_kernel_eq_skeleton]; unfold cc3__selfloop_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3_4 _)

/-- The region's proof data: the arrays as found, each input block kept, the output block at the expression. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) :
    (dat3 V c).after 4 t = out3_4 (iblk3 V c 0 t) (iblk3 V c 1 t) (iblk3 V c 2 t) (iblk3 V c 3 t) := by dsimp only [dat3]

theorem before3_0 (c : Dev nD) (t : Fin cfg3.N) (d) : (dat3 V c).before 0 t d = iblk3 V c 0 t :=
  ((dat3 V c).before_in_eq_fetched 0 rfl (fun _ => rfl) (fun _ _ _ => rfl) (fun _ => rfl) t d).trans rfl
theorem before3_1 (c : Dev nD) (t : Fin cfg3.N) (d) : (dat3 V c).before 1 t d = iblk3 V c 1 t :=
  ((dat3 V c).before_in_eq_fetched 1 rfl (fun _ => rfl) (fun _ _ _ => rfl) (fun _ => rfl) t d).trans rfl
theorem before3_2 (c : Dev nD) (t : Fin cfg3.N) (d) : (dat3 V c).before 2 t d = iblk3 V c 2 t :=
  ((dat3 V c).before_in_eq_fetched 2 rfl (fun _ => rfl) (fun _ _ _ => rfl) (fun _ => rfl) t d).trans rfl
theorem before3_3 (c : Dev nD) (t : Fin cfg3.N) (d) : (dat3 V c).before 3 t d = iblk3 V c 3 t :=
  ((dat3 V c).before_in_eq_fetched 3 rfl (fun _ => rfl) (fun _ _ _ => rfl) (fun _ => rfl) t d).trans rfl

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _ (iblk3 V c 0 t) (iblk3 V c 1 t) (iblk3 V c 2 t) (iblk3 V c 3 t) _)
  iframe H0 H1 H2 H3
  isplitl [H4]; · iexists _; iexact H4
  iintro ⟨H0, H1, H2, H3, H4⟩
  iframe

theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Lin4.lean ====
import proofs.«412905_j38783554683010_1_alg».proof.Proof.Gen.KernelIdeal.Launch
import proofs.«412905_j38783554683010_1_alg».proof.Proof.Gen.KernelIdeal.Skeleton
import proofs.«412905_j38783554683010_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window w's array that grid point t reads, as the region finds the array. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_0 : Rect S5000x128 := Rect.unit (s := S5000x128) ![0, 0] S5000x128.size inb_S5000x128_S5000x128_0_0
abbrev r4_1 : Rect S128x128 := Rect.unit (s := S128x128) ![0, 0] S128x128.size inb_S128x128_S128x128_0_0
abbrev r4_2 : Rect S5000x128 := Rect.unit (s := S5000x128) ![0, 0] S5000x128.size inb_S5000x128_S5000x128_0_0

/-- What the body stores: the product of its two loaded blocks. -/
def out4_2 (x0 : Vec F S5000x128 .f32) (x1 : Vec F S128x128 .f32) : Vec F S5000x128 .f32 :=
  View.canon [⟨r4_2, k4_pay1 (View.ld x0 r4_0) (View.ld x1 r4_1)⟩]

theorem cover4_2 (p0 : Vec F S5000x128 .f32) (y : S5000x128.Idx) :
    ∃ pc ∈ ([⟨r4_2, p0⟩] : List (View.Piece (Elt F) S5000x128 .f32)), y ∈ pc.1.set :=
  View.cover_of_tiled [⟨r4_2, p0⟩] S5000x128.size (by rfl) y

set_option maxHeartbeats 1000000 in

/-- The body's triple: it leaves the input blocks as they were and the output block at their product. -/
theorem sound_kernel4 (c : Dev nD) (E : Set ℕ) (i : grid4.Coords) (arg1 : Memref sig .tc .vmem S5000x128 .f32) (harg1 : arg1.IsWhole)
    (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out4_2 x0 x1)) -∗ K ⟨⟩))
      ⊢ wp frame (wpE (defs₀ (F := F)) Variants.none c none) E (cc4__linear_kernel i arg1 harg1 arg2 harg2 arg3 harg3) K := by
  simp only [cc4__linear_kernel_eq_skeleton]; unfold cc4__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-- The region's proof data: the arrays as found, each input block kept, the output block at the product. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

theorem before4_0 (c : Dev nD) (t : Fin cfg4.N) (d) : (dat4 V c).before 0 t d = iblk4 V c 0 t :=
  ((dat4 V c).before_in_eq_fetched 0 rfl (fun _ => rfl) (fun _ _ _ => rfl) (fun _ => rfl) t d).trans rfl
theorem before4_1 (c : Dev nD) (t : Fin cfg4.N) (d) : (dat4 V c).before 1 t d = iblk4 V c 1 t :=
  ((dat4 V c).before_in_eq_fetched 1 rfl (fun _ => rfl) (fun _ _ _ => rfl) (fun _ => rfl) t d).trans rfl

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  iframe H0 H1
  isplitl [H2]; · iexists _; iexact H2
  iintro ⟨H0, H1, H2⟩
  iframe

theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.Self5.lean ====
import proofs.«412905_j38783554683010_1_alg».proof.Proof.Gen.KernelIdeal.Launch
import proofs.«412905_j38783554683010_1_alg».proof.Proof.Gen.KernelIdeal.Skeleton
import proofs.«412905_j38783554683010_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window w's array that grid point t reads, as the region finds the array. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_0 : Rect S5000x128 := Rect.unit (s := S5000x128) ![0, 0] S5000x128.size inb_S5000x128_S5000x128_0_0
abbrev r5_2 : Rect S5000x1 := Rect.unit (s := S5000x1) ![0, 0] S5000x1.size inb_S5000x1_S5000x1_0_0
abbrev r5_3 : Rect S1x128 := Rect.unit (s := S1x128) ![0, 0] S1x128.size inb_S1x128_S1x128_0_0

/-- What the body stores: max((agg + hw · d) + b, 0) of its four loaded blocks. -/
def out5_4 (x0 x1 : Vec F S5000x128 .f32) (x2 : Vec F S5000x1 .f32) (x3 : Vec F S1x128 .f32) : Vec F S5000x128 .f32 :=
  View.canon [⟨r5_0, k5_pay1 (View.ld x0 r5_0) (View.ld x1 r5_0) (View.ld x2 r5_2) (View.ld x3 r5_3)⟩]

theorem cover5_4 (p0 : Vec F S5000x128 .f32) (y : S5000x128.Idx) :
    ∃ pc ∈ ([⟨r5_0, p0⟩] : List (View.Piece (Elt F) S5000x128 .f32)), y ∈ pc.1.set :=
  View.cover_of_tiled [⟨r5_0, p0⟩] S5000x128.size (by rfl) y

set_option maxHeartbeats 1000000 in

/-- The body's triple: it leaves the four input blocks as they were and the output block at that expression of them. -/
theorem sound_kernel5 (c : Dev nD) (E : Set ℕ) (i : grid5.Coords) (arg1 : Memref sig .tc .vmem S5000x128 .f32) (harg1 : arg1.IsWhole)
    (arg2 : Memref sig .tc .vmem S5000x128 .f32) (harg2 : arg2.IsWhole) (arg3 : Memref sig .tc .vmem S5000x1 .f32) (harg3 : arg3.IsWhole)
    (arg4 : Memref sig .tc .vmem S1x128 .f32) (harg4 : arg4.IsWhole) (arg5 : Memref sig .tc .vmem S5000x128 .f32) (harg5 : arg5.IsWhole)
    (x0 x1 : Vec F S5000x128 .f32) (x2 : Vec F S5000x1 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out5_4 x0 x1 x2 x3)) -∗ K ⟨⟩))
      ⊢ wp frame (wpE (defs₀ (F := F)) Variants.none c none) E (cc5__selfloop_kernel i arg1 harg1 arg2 harg2 arg3 harg3 arg4 harg4 arg5 harg5) K := by
  simp only [cc5__selfloop_kernel_eq_skeleton]; unfold cc5__selfloop_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover5_4 _)

/-- The region's proof data: the arrays as found, each input block kept, the output block at the expression. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => out5_4 (iblk5 V c 0 t) (iblk5 V c 1 t) (iblk5 V c 2 t) (iblk5 V c 3 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) :
    (dat5 V c).after 4 t = out5_4 (iblk5 V c 0 t) (iblk5 V c 1 t) (iblk5 V c 2 t) (iblk5 V c 3 t) := by dsimp only [dat5]

theorem before5_0 (c : Dev nD) (t : Fin cfg5.N) (d) : (dat5 V c).before 0 t d = iblk5 V c 0 t :=
  ((dat5 V c).before_in_eq_fetched 0 rfl (fun _ => rfl) (fun _ _ _ => rfl) (fun _ => rfl) t d).trans rfl
theorem before5_1 (c : Dev nD) (t : Fin cfg5.N) (d) : (dat5 V c).before 1 t d = iblk5 V c 1 t :=
  ((dat5 V c).before_in_eq_fetched 1 rfl (fun _ => rfl) (fun _ _ _ => rfl) (fun _ => rfl) t d).trans rfl
theorem before5_2 (c : Dev nD) (t : Fin cfg5.N) (d) : (dat5 V c).before 2 t d = iblk5 V c 2 t :=
  ((dat5 V c).before_in_eq_fetched 2 rfl (fun _ => rfl) (fun _ _ _ => rfl) (fun _ => rfl) t d).trans rfl
theorem before5_3 (c : Dev nD) (t : Fin cfg5.N) (d) : (dat5 V c).before 3 t d = iblk5 V c 3 t :=
  ((dat5 V c).before_in_eq_fetched 3 rfl (fun _ => rfl) (fun _ _ _ => rfl) (fun _ => rfl) t d).trans rfl

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3]
  rw [show (dat5 V c).Φ t.succ = (dat5 V c).Φ t.castSucc from rfl,
    show (dat5 V c).owesAt () t.succ = (dat5 V c).owesAt () t.castSucc from rfl,
    after5_0, after5_1, after5_2, after5_3, after5_4]
  iintro ⟨HΦ, Ho, ⟨%d0, H0⟩, ⟨%d1, H1⟩, ⟨%d2, H2⟩, ⟨%d3, H3⟩, ⟨%d4, H4⟩⟩
  iapply (sound_kernel5 c Set.univ _ _ _ _ _ _ _ _ _ _ _ (iblk5 V c 0 t) (iblk5 V c 1 t) (iblk5 V c 2 t) (iblk5 V c 3 t) _)
  iframe H0 H1 H2 H3
  isplitl [H4]; · iexists _; iexact H4
  iintro ⟨H0, H1, H2, H3, H4⟩
  iframe

theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KI.Reg6Runs.lean ====
import proofs.«412905_j38783554683010_1_alg».proof.Proof.Gen.KernelIdeal.Launch
import proofs.«412905_j38783554683010_1_alg».proof.Proof.Gen.KernelIdeal.Skeleton
import proofs.«412905_j38783554683010_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body resets its accumulator exactly at the first of the ten grid points, -/
abbrev cond6_0 (i : grid6.Coords) : Prop := (Scalar.cmpi .ne (Scalar.extui (Scalar.cmpi .eq (BitVec.ofNat 32 (i 0).val) 0#32)) 0#32) = 1#1

theorem hcond6_0 : ∀ t : Fin cfg6.N, cond6_0 (grid6.coords t) ↔ t.val % 10 = 0 :=
  (by decide +kernel : ∀ t : Fin grid6.N, cond6_0 (grid6.coords t) ↔ t.val % 10 = 0)

/-- and stores the accumulator to the output block exactly at the last. -/
abbrev cond6_1 (i : grid6.Coords) : Prop := k6_cond2 i = 1#1

theorem hcond6_1 : ∀ t : Fin cfg6.N, cond6_1 (grid6.coords t) ↔ t.val % 10 = 9 :=
  (by decide +kernel : ∀ t : Fin grid6.N, cond6_1 (grid6.coords t) ↔ t.val % 10 = 9)

theorem liveAt6_0 : ∀ t : Fin cfg6.N, cfg6.idle 0 (grid6.coords t) = false := by decide +kernel

theorem liveAt6_1 : ∀ t : Fin cfg6.N, cfg6.idle 1 (grid6.coords t) = false := by decide +kernel

theorem idleAt6_2_A : ∀ t : Fin cfg6.N, cond6_0 (grid6.coords t) → ¬cond6_1 (grid6.coords t) → cfg6.idle 2 (grid6.coords t) = true := by decide +kernel

theorem noFlush6_2_A : ∀ t : Fin cfg6.N, cond6_0 (grid6.coords t) → ¬cond6_1 (grid6.coords t) → (cfg6.win 2).flush t = false := by decide +kernel

theorem idleAt6_2_B : ∀ t : Fin cfg6.N, ¬cond6_0 (grid6.coords t) → ¬cond6_1 (grid6.coords t) → cfg6.idle 2 (grid6.coords t) = true := by decide +kernel

theorem noFlush6_2_B : ∀ t : Fin cfg6.N, ¬cond6_0 (grid6.coords t) → ¬cond6_1 (grid6.coords t) → (cfg6.win 2).flush t = false := by decide +kernel

theorem liveAt6_2_C : ∀ t : Fin cfg6.N, ¬cond6_0 (grid6.coords t) → cond6_1 (grid6.coords t) → cfg6.idle 2 (grid6.coords t) = false := by decide +kernel

abbrev VO6_2 : View sig .tc .vmem S512x128 .f32 := (Memref.whole cc6_stg2_0 : Memref sig .tc .vmem S512x128 .f32).view

abbrev ms6_0 (t : Fin cfg6.N) : Memref sig .tc .vmem S5000x1 .i32 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S5000x128 .f32 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S512x128 .f32 := win6_2.stage (cfg6.slots t 2)
abbrev hs6_2 (t : Fin cfg6.N) : (ms6_2 t).IsWhole := hstage6_2 ((cfg6.slots t 2).cast nbuf6_2)

abbrev scM6_0 : Memref sig .tc .vmem S512x128 .f32 := Memref.whole cc6_scratch0

abbrev VS6_0 : View sig .tc .vmem S512x128 .f32 := scM6_0.view

theorem PhiA6_eq (c : Dev nD) :
    (Pipeline.ΦA spec6 c : sProp 𝕄)
      = iprop(iprop(iprop((∃ d, owns (c : Thread nD τ) scM6_0 fullShare d))
          ∗ Pipeline.scopedRestBut (Ix := Unit) (Name := ℕ) (U := UR sig nD τ) (Lvl := ℕ) (Val := Elt F) spec6 c [cc6_scratch0]) ∗ (∃ r, prngReg c r)) := by
  unfold Pipeline.ΦA; rw [scopedRest6_split]; simp only [scM6_0, owns_whole]; try rfl

section
variable (c : Dev nD) (i : grid6.Coords) (arg1 : Memref sig .tc .vmem S5000x1 .i32) (harg1 : arg1.IsWhole) (arg2 : Memref sig .tc .vmem S5000x128 .f32) (harg2 : arg2.IsWhole) (arg3 : Memref sig .tc .vmem S512x128 .f32) (harg3 : arg3.IsWhole) (arg4 : Memref sig .tc .vmem S512x128 .f32) (harg4 : arg4.IsWhole)

set_option maxHeartbeats 1000000 in

/-- The body at the first point: reset, then add this point's product to the accumulator. -/
noncomputable def kernelRun6_A (hc0 : cond6_0 i) (hc1 : ¬cond6_1 i)
    (x0 : Vec F S5000x1 .i32) (x1 : Vec F S5000x128 .f32) :
    Σ' (L2 : List (View.Piece (Elt F) S512x128 .f32)), { LS0 : List (View.Piece (Elt F) S512x128 .f32) //
      ∀ (xi2 : Vec F S512x128 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc6__readout_kernel i arg1 harg1 arg2 harg2 arg3 harg3 arg4 harg4) K } := by
  refine ⟨[], ?_, fun xi2 E K => ?run⟩
  case run =>
    simp only [cc6__readout_kernel_eq_skeleton]; unfold cc6__readout_kernel_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

set_option maxHeartbeats 1000000 in

/-- The body at a middle point: add this point's product to the accumulator. -/
noncomputable def kernelRun6_B (hc0 : ¬cond6_0 i) (hc1 : ¬cond6_1 i)
    (x0 : Vec F S5000x1 .i32) (x1 : Vec F S5000x128 .f32) (xs0 : Vec F S512x128 .f32) :
    Σ' (L2 : List (View.Piece (Elt F) S512x128 .f32)), { LS0 : List (View.Piece (Elt F) S512x128 .f32) //
      ∀ (xi2 : Vec F S512x128 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc6__readout_kernel i arg1 harg1 arg2 harg2 arg3 harg3 arg4 harg4) K } := by
  refine ⟨[], ?_, fun xi2 E K => ?run⟩
  case run =>
    simp only [cc6__readout_kernel_eq_skeleton]; unfold cc6__readout_kernel_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

set_option maxHeartbeats 1000000 in

/-- The body at the last point: add, then store the accumulator to the output block. -/
noncomputable def kernelRun6_C (hc0 : ¬cond6_0 i) (hc1 : cond6_1 i)
    (x0 : Vec F S5000x1 .i32) (x1 : Vec F S5000x128 .f32) (xs0 : Vec F S512x128 .f32) :
    Σ' (L2 : List (View.Piece (Elt F) S512x128 .f32)), { LS0 : List (View.Piece (Elt F) S512x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc6__readout_kernel i arg1 harg1 arg2 harg2 arg3 harg3 arg4 harg4) K } := by
  refine ⟨?_, ?_, fun E K => ?run⟩
  case run =>
    simp only [cc6__readout_kernel_eq_skeleton]; unfold cc6__readout_kernel_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

end

end Cert.KernelIdeal.Hand

end
-- ==== Proof.KI.Reg6.lean ====
import proofs.«412905_j38783554683010_1_alg».proof.Proof.KI.Reg6Runs
import proofs.«412905_j38783554683010_1_alg».proof.Proof.Gen.KernelIdeal.Launch
import proofs.«412905_j38783554683010_1_alg».proof.Proof.Gen.KernelIdeal.Skeleton
import proofs.«412905_j38783554683010_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

section
variable (c : Dev nD) (i : grid6.Coords) (arg1 : Memref sig .tc .vmem S5000x1 .i32) (harg1 : arg1.IsWhole) (arg2 : Memref sig .tc .vmem S5000x128 .f32) (harg2 : arg2.IsWhole) (arg3 : Memref sig .tc .vmem S512x128 .f32) (harg3 : arg3.IsWhole) (arg4 : Memref sig .tc .vmem S512x128 .f32) (harg4 : arg4.IsWhole)

section
variable (hc0 : cond6_0 i) (hc1 : ¬cond6_1 i) (x0 : Vec F S5000x1 .i32) (x1 : Vec F S5000x128 .f32)

def out6_A_2 : Vec F S512x128 .f32 :=
  VO6_2.read (Elt F) (VO6_2.writes (Elt F) VO6_2.junk (kernelRun6_A c i arg1 harg1 arg2 harg2 arg3 harg3 arg4 harg4 hc0 hc1 x0 x1).1)

theorem scover6_A_0 (y : S512x128.Idx) :
    ∃ pc ∈ (kernelRun6_A c i arg1 harg1 arg2 harg2 arg3 harg3 arg4 harg4 hc0 hc1 x0 x1).2.1, y ∈ pc.1.set :=
  View.cover_of_tiledL (kernelRun6_A c i arg1 harg1 arg2 harg2 arg3 harg3 arg4 harg4 hc0 hc1 x0 x1).2.1 S512x128.size (by sl_kernel_rfl) y

def sout6_A_0 : Vec F S512x128 .f32 :=
  VS6_0.read (Elt F) (VS6_0.writes (Elt F) VS6_0.junk (kernelRun6_A c i arg1 harg1 arg2 harg2 arg3 harg3 arg4 harg4 hc0 hc1 x0 x1).2.1)

end

section
variable (hc0 : ¬cond6_0 i) (hc1 : ¬cond6_1 i) (x0 : Vec F S5000x1 .i32) (x1 : Vec F S5000x128 .f32) (xs0 : Vec F S512x128 .f32)

def out6_B_2 : Vec F S512x128 .f32 :=
  VO6_2.read (Elt F) (VO6_2.writes (Elt F) VO6_2.junk (kernelRun6_B c i arg1 harg1 arg2 harg2 arg3 harg3 arg4 harg4 hc0 hc1 x0 x1 xs0).1)

theorem scover6_B_0 (y : S512x128.Idx) :
    ∃ pc ∈ (kernelRun6_B c i arg1 harg1 arg2 harg2 arg3 harg3 arg4 harg4 hc0 hc1 x0 x1 xs0).2.1, y ∈ pc.1.set :=
  View.cover_of_tiledL (kernelRun6_B c i arg1 harg1 arg2 harg2 arg3 harg3 arg4 harg4 hc0 hc1 x0 x1 xs0).2.1 S512x128.size (by sl_kernel_rfl) y

def sout6_B_0 : Vec F S512x128 .f32 :=
  VS6_0.read (Elt F) (VS6_0.writes (Elt F) VS6_0.junk (kernelRun6_B c i arg1 harg1 arg2 harg2 arg3 harg3 arg4 harg4 hc0 hc1 x0 x1 xs0).2.1)

end

section
variable (hc0 : ¬cond6_0 i) (hc1 : cond6_1 i) (x0 : Vec F S5000x1 .i32) (x1 : Vec F S5000x128 .f32) (xs0 : Vec F S512x128 .f32)

theorem cover6_C_2 (y : S512x128.Idx) :
    ∃ pc ∈ (kernelRun6_C c i arg1 harg1 arg2 harg2 arg3 harg3 arg4 harg4 hc0 hc1 x0 x1 xs0).1, y ∈ pc.1.set :=
  View.cover_of_tiledL (kernelRun6_C c i arg1 harg1 arg2 harg2 arg3 harg3 arg4 harg4 hc0 hc1 x0 x1 xs0).1 S512x128.size (by sl_kernel_rfl) y

def out6_C_2 : Vec F S512x128 .f32 :=
  VO6_2.read (Elt F) (VO6_2.writes (Elt F) VO6_2.junk (kernelRun6_C c i arg1 harg1 arg2 harg2 arg3 harg3 arg4 harg4 hc0 hc1 x0 x1 xs0).1)

theorem scover6_C_0 (y : S512x128.Idx) :
    ∃ pc ∈ (kernelRun6_C c i arg1 harg1 arg2 harg2 arg3 harg3 arg4 harg4 hc0 hc1 x0 x1 xs0).2.1, y ∈ pc.1.set :=
  View.cover_of_tiledL (kernelRun6_C c i arg1 harg1 arg2 harg2 arg3 harg3 arg4 harg4 hc0 hc1 x0 x1 xs0).2.1 S512x128.size (by sl_kernel_rfl) y

def sout6_C_0 : Vec F S512x128 .f32 :=
  VS6_0.read (Elt F) (VS6_0.writes (Elt F) VS6_0.junk (kernelRun6_C c i arg1 harg1 arg2 harg2 arg3 harg3 arg4 harg4 hc0 hc1 x0 x1 xs0).2.1)

end

end

/-- The output block and the accumulator after grid point n, by the point's control case. -/
def outsAt6 (c : Dev nD) : (n : ℕ) → n < cfg6.N → Vec F S512x128 .f32 × Vec F S512x128 .f32
  | 0, hn => (out6_A_2 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) scM6_0 (Memref.isWhole_whole _) ((hcond6_0 ⟨0, hn⟩).mpr (Nat.zero_mod _)) (fun h => (fun h => by (try dsimp only at h); omega) ((hcond6_1 ⟨0, hn⟩).mp h)) (iblk6 V c 0 ⟨0, hn⟩) (iblk6 V c 1 ⟨0, hn⟩), sout6_A_0 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) scM6_0 (Memref.isWhole_whole _) ((hcond6_0 ⟨0, hn⟩).mpr (Nat.zero_mod _)) (fun h => (fun h => by (try dsimp only at h); omega) ((hcond6_1 ⟨0, hn⟩).mp h)) (iblk6 V c 0 ⟨0, hn⟩) (iblk6 V c 1 ⟨0, hn⟩))
  | n + 1, hn =>
    if h0 : (n + 1) % 10 = 0 then
      False.elim (by have hN : n + 1 < 10 := lt_of_lt_of_eq hn (show cfg6.N = 10 from N_6); omega)
    else
      if h1 : (n + 1) % 10 = 9 then
        (out6_C_2 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) scM6_0 (Memref.isWhole_whole _) (fun h => h0 ((hcond6_0 ⟨n + 1, hn⟩).mp h)) ((hcond6_1 ⟨n + 1, hn⟩).mpr h1) (iblk6 V c 0 ⟨n + 1, hn⟩) (iblk6 V c 1 ⟨n + 1, hn⟩) (outsAt6 c n (Nat.lt_of_succ_lt hn)).2, sout6_C_0 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) scM6_0 (Memref.isWhole_whole _) (fun h => h0 ((hcond6_0 ⟨n + 1, hn⟩).mp h)) ((hcond6_1 ⟨n + 1, hn⟩).mpr h1) (iblk6 V c 0 ⟨n + 1, hn⟩) (iblk6 V c 1 ⟨n + 1, hn⟩) (outsAt6 c n (Nat.lt_of_succ_lt hn)).2)
      else
        (out6_B_2 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) scM6_0 (Memref.isWhole_whole _) (fun h => h0 ((hcond6_0 ⟨n + 1, hn⟩).mp h)) (fun h => h1 ((hcond6_1 ⟨n + 1, hn⟩).mp h)) (iblk6 V c 0 ⟨n + 1, hn⟩) (iblk6 V c 1 ⟨n + 1, hn⟩) (outsAt6 c n (Nat.lt_of_succ_lt hn)).2, sout6_B_0 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) scM6_0 (Memref.isWhole_whole _) (fun h => h0 ((hcond6_0 ⟨n + 1, hn⟩).mp h)) (fun h => h1 ((hcond6_1 ⟨n + 1, hn⟩).mp h)) (iblk6 V c 0 ⟨n + 1, hn⟩) (iblk6 V c 1 ⟨n + 1, hn⟩) (outsAt6 c n (Nat.lt_of_succ_lt hn)).2)

theorem outsAt6_A (c : Dev nD) (t : Fin cfg6.N) (h0 : t.val % 10 = 0) (h1 : ¬t.val % 10 = 9) :
    outsAt6 V c t.val t.isLt = (out6_A_2 c (grid6.coords t) (ms6_0 t) (hs6_0 t) (ms6_1 t) (hs6_1 t) (ms6_2 t) (hs6_2 t) scM6_0 (Memref.isWhole_whole _) ((hcond6_0 t).mpr h0) (fun h => h1 ((hcond6_1 t).mp h)) (iblk6 V c 0 t) (iblk6 V c 1 t), sout6_A_0 c (grid6.coords t) (ms6_0 t) (hs6_0 t) (ms6_1 t) (hs6_1 t) (ms6_2 t) (hs6_2 t) scM6_0 (Memref.isWhole_whole _) ((hcond6_0 t).mpr h0) (fun h => h1 ((hcond6_1 t).mp h)) (iblk6 V c 0 t) (iblk6 V c 1 t)) := by
  obtain ⟨n, hn⟩ := t
  cases n with
  | zero => exact rfl
  | succ n => exact (by exfalso; (try dsimp only at h0); have hN : n + 1 < 10 := lt_of_lt_of_eq hn (show cfg6.N = 10 from N_6); omega)

theorem outsAt6_B (c : Dev nD) (t : Fin cfg6.N) (h0 : ¬t.val % 10 = 0) (h1 : ¬t.val % 10 = 9) :
    outsAt6 V c t.val t.isLt = (out6_B_2 c (grid6.coords t) (ms6_0 t) (hs6_0 t) (ms6_1 t) (hs6_1 t) (ms6_2 t) (hs6_2 t) scM6_0 (Memref.isWhole_whole _) (fun h => h0 ((hcond6_0 t).mp h)) (fun h => h1 ((hcond6_1 t).mp h)) (iblk6 V c 0 t) (iblk6 V c 1 t) (outsAt6 V c (t.val - 1) (Nat.lt_of_le_of_lt (Nat.sub_le _ _) t.isLt)).2, sout6_B_0 c (grid6.coords t) (ms6_0 t) (hs6_0 t) (ms6_1 t) (hs6_1 t) (ms6_2 t) (hs6_2 t) scM6_0 (Memref.isWhole_whole _) (fun h => h0 ((hcond6_0 t).mp h)) (fun h => h1 ((hcond6_1 t).mp h)) (iblk6 V c 0 t) (iblk6 V c 1 t) (outsAt6 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt6_C (c : Dev nD) (t : Fin cfg6.N) (h0 : ¬t.val % 10 = 0) (h1 : t.val % 10 = 9) :
    outsAt6 V c t.val t.isLt = (out6_C_2 c (grid6.coords t) (ms6_0 t) (hs6_0 t) (ms6_1 t) (hs6_1 t) (ms6_2 t) (hs6_2 t) scM6_0 (Memref.isWhole_whole _) (fun h => h0 ((hcond6_0 t).mp h)) ((hcond6_1 t).mpr h1) (iblk6 V c 0 t) (iblk6 V c 1 t) (outsAt6 V c (t.val - 1) (Nat.lt_of_le_of_lt (Nat.sub_le _ _) t.isLt)).2, sout6_C_0 c (grid6.coords t) (ms6_0 t) (hs6_0 t) (ms6_1 t) (hs6_1 t) (ms6_2 t) (hs6_2 t) scM6_0 (Memref.isWhole_whole _) (fun h => h0 ((hcond6_0 t).mp h)) ((hcond6_1 t).mpr h1) (iblk6 V c 0 t) (iblk6 V c 1 t) (outsAt6 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- Between grid points the invariant carries the accumulator at what the previous point left in it. -/
def PhiS6 (c : Dev nD) : (n : ℕ) → n ≤ cfg6.N → sProp 𝕄
  | 0, _ => Pipeline.ΦA spec6 c
  | n + 1, hn => iprop(iprop(iprop(owns (c : Thread nD τ) scM6_0 fullShare ((outsAt6 V c n hn).2)) ∗ Pipeline.scopedRestBut (Ix := Unit) (Name := ℕ) (U := UR sig nD τ) (Lvl := ℕ) (Val := Elt F) spec6 c [cc6_scratch0]) ∗ (∃ r, prngReg c r))

theorem PhiS6_zero (c : Dev nD) (n : ℕ) (h : n ≤ cfg6.N) (hz : n = 0) : PhiS6 V c n h = Pipeline.ΦA spec6 c := by
  subst hz; rfl

theorem PhiS6_succ (c : Dev nD) (n : ℕ) (hn : n < cfg6.N) :
    PhiS6 V c (n + 1) hn = iprop(iprop(iprop(owns (c : Thread nD τ) scM6_0 fullShare ((outsAt6 V c n hn).2)) ∗ Pipeline.scopedRestBut (Ix := Unit) (Name := ℕ) (U := UR sig nD τ) (Lvl := ℕ) (Val := Elt F) spec6 c [cc6_scratch0]) ∗ (∃ r, prngReg c r)) := rfl

theorem PhiS6_pos (c : Dev nD) (n : ℕ) (h : n ≤ cfg6.N) (hz : n ≠ 0) :
    PhiS6 V c n h = iprop(iprop(iprop(owns (c : Thread nD τ) scM6_0 fullShare ((outsAt6 V c (n - 1) (by omega)).2)) ∗ Pipeline.scopedRestBut (Ix := Unit) (Name := ℕ) (U := UR sig nD τ) (Lvl := ℕ) (Val := Elt F) spec6 c [cc6_scratch0]) ∗ (∃ r, prngReg c r)) := by
  cases n with
  | zero => exact absurd rfl hz
  | succ n => rfl

/-- The region's proof data: inputs kept, the output block and the invariant as the three cases leave them. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => (outsAt6 V c t.val t.isLt).1
  Φ t := PhiS6 V c t.val (Nat.le_of_lt_succ t.isLt)
  q _ := fullShare
  owed _ := 0

theorem A_eq6 (c : Dev nD) (w : Fin cfg6.W) : (dat6 V c).A w = V c (Pipeline.arrRef spec6 w) := by
  dsimp only [dat6]

theorem PhiS6_castSucc (c : Dev nD) (t : Fin cfg6.N) :
    (dat6 V c).Φ t.castSucc = PhiS6 V c t.val (Nat.le_of_lt t.isLt) := by
  dsimp only [dat6]; simp only [Fin.coe_castSucc]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = (outsAt6 V c t.val t.isLt).1 := by dsimp only [dat6]

theorem before6_0 (c : Dev nD) (t : Fin cfg6.N) (d) : (dat6 V c).before 0 t d = iblk6 V c 0 t :=
  ((dat6 V c).before_in_eq_fetched 0 rfl (fun _ => rfl) (fun _ _ _ => rfl) (fun _ => rfl) t d).trans rfl
theorem before6_1 (c : Dev nD) (t : Fin cfg6.N) (d) : (dat6 V c).before 1 t d = iblk6 V c 1 t :=
  ((dat6 V c).before_in_eq_fetched 1 rfl (fun _ => rfl) (fun _ _ _ => rfl) (fun _ => rfl) t d).trans rfl

def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d)))

def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t)

set_option maxHeartbeats 4800000 in

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).owesAt () t.succ = (dat6 V c).owesAt () t.castSucc from rfl]
  rw [show (dat6 V c).Φ t.succ = PhiS6 V c (t.val + 1) t.isLt from rfl, PhiS6_succ]
  have hN : t.val < 10 := lt_of_lt_of_eq t.isLt (show cfg6.N = 10 from N_6)
  by_cases h0 : t.val % 10 = 0
  · by_cases h1 : t.val % 10 = 9
    · exfalso; omega
    · rw [show (dat6 V c).leavesExact 0 t = owns (c : Thread nD τ) (ms6_0 t) fullShare ((dat6 V c).after 0 t) from by
        unfold Dat.leavesExact; rw [liveAt6_0 t], after6_0]
      rw [show (dat6 V c).leavesExact 1 t = owns (c : Thread nD τ) (ms6_1 t) fullShare ((dat6 V c).after 1 t) from by
        unfold Dat.leavesExact; rw [liveAt6_1 t], after6_1]
      rw [Dat.leavesExact_idle (dat6 V c) 2 t (idleAt6_2_A t ((hcond6_0 t).mpr h0) (fun h => h1 ((hcond6_1 t).mp h))) (noFlush6_2_A t ((hcond6_0 t).mpr h0) (fun h => h1 ((hcond6_1 t).mp h)))]
      rw [outsAt6_A V c t h0 h1]
      unfold sout6_A_0; (try dsimp only)
      have hz : t.val = 0 := by omega
      rw [PhiS6_castSucc V c t, PhiS6_zero V c _ _ hz, PhiA6_eq]
      iintro ⟨⟨⟨HS0, HR⟩, Hg⟩, Ho, ⟨%d0, H0⟩, ⟨%d1, H1⟩, ⟨%d2, H2⟩⟩
      iapply ((kernelRun6_A c (grid6.coords t) _ _ _ _ _ _ _ _ ((hcond6_0 t).mpr h0) (fun h => h1 ((hcond6_1 t).mp h)) (iblk6 V c 0 t) (iblk6 V c 1 t)).2.2 _ Set.univ _)
      iframe H0 H1 H2 HS0
      iintro ⟨H0, H1, H2, ⟨%es0, HS0⟩⟩
      iframe HR Hg Ho H0 H1
      isplitl [HS0]
      · unfold owns; iexists _; isplitr
        swap; · iexact HS0
        ipureintro; exact View.read_writes_of_cover _ _ _ _ _ (scover6_A_0 c _ _ _ _ _ _ _ _ _ _ _ _ _)
      iexists _; iexact H2
  · have hz : t.val ≠ 0 := by omega
    by_cases h1 : t.val % 10 = 9
    · rw [show (dat6 V c).leavesExact 0 t = owns (c : Thread nD τ) (ms6_0 t) fullShare ((dat6 V c).after 0 t) from by
        unfold Dat.leavesExact; rw [liveAt6_0 t], after6_0]
      rw [show (dat6 V c).leavesExact 1 t = owns (c : Thread nD τ) (ms6_1 t) fullShare ((dat6 V c).after 1 t) from by
        unfold Dat.leavesExact; rw [liveAt6_1 t], after6_1]
      rw [show (dat6 V c).leavesExact 2 t = owns (c : Thread nD τ) (ms6_2 t) fullShare ((dat6 V c).after 2 t) from by
        unfold Dat.leavesExact; rw [liveAt6_2_C t (fun h => h0 ((hcond6_0 t).mp h)) ((hcond6_1 t).mpr h1)], after6_2]
      rw [outsAt6_C V c t h0 h1]
      unfold out6_C_2 sout6_C_0; (try dsimp only)
      rw [PhiS6_castSucc V c t, PhiS6_pos V c _ _ hz]
      iintro ⟨⟨⟨HS0, HR⟩, Hg⟩, Ho, ⟨%d0, H0⟩, ⟨%d1, H1⟩, ⟨%d2, H2⟩⟩
      iapply ((kernelRun6_C c (grid6.coords t) _ _ _ _ _ _ _ _ (fun h => h0 ((hcond6_0 t).mp h)) ((hcond6_1 t).mpr h1) (iblk6 V c 0 t) (iblk6 V c 1 t) _).2.2 Set.univ _)
      iframe H0 H1 HS0
      isplitl [H2]; · iexists _; iexact H2
      iintro ⟨H0, H1, ⟨%e2, H2⟩, ⟨%es0, HS0⟩⟩
      iframe HR Hg Ho H0 H1
      isplitl [HS0]
      · unfold owns; iexists _; isplitr
        swap; · iexact HS0
        ipureintro; exact View.read_writes_of_cover _ _ _ _ _ (scover6_C_0 c _ _ _ _ _ _ _ _ _ _ _ _ _ _)
      unfold owns; iexists _; isplitr
      swap; · iexact H2
      ipureintro; exact View.read_writes_of_cover _ _ _ _ _ (cover6_C_2 c _ _ _ _ _ _ _ _ _ _ _ _ _ _)
    · rw [show (dat6 V c).leavesExact 0 t = owns (c : Thread nD τ) (ms6_0 t) fullShare ((dat6 V c).after 0 t) from by
        unfold Dat.leavesExact; rw [liveAt6_0 t], after6_0]
      rw [show (dat6 V c).leavesExact 1 t = owns (c : Thread nD τ) (ms6_1 t) fullShare ((dat6 V c).after 1 t) from by
        unfold Dat.leavesExact; rw [liveAt6_1 t], after6_1]
      rw [Dat.leavesExact_idle (dat6 V c) 2 t (idleAt6_2_B t (fun h => h0 ((hcond6_0 t).mp h)) (fun h => h1 ((hcond6_1 t).mp h))) (noFlush6_2_B t (fun h => h0 ((hcond6_0 t).mp h)) (fun h => h1 ((hcond6_1 t).mp h)))]
      rw [outsAt6_B V c t h0 h1]
      unfold sout6_B_0; (try dsimp only)
      rw [PhiS6_castSucc V c t, PhiS6_pos V c _ _ hz]
      iintro ⟨⟨⟨HS0, HR⟩, Hg⟩, Ho, ⟨%d0, H0⟩, ⟨%d1, H1⟩, ⟨%d2, H2⟩⟩
      iapply ((kernelRun6_B c (grid6.coords t) _ _ _ _ _ _ _ _ (fun h => h0 ((hcond6_0 t).mp h)) (fun h => h1 ((hcond6_1 t).mp h)) (iblk6 V c 0 t) (iblk6 V c 1 t) _).2.2 _ Set.univ _)
      iframe H0 H1 H2 HS0
      iintro ⟨H0, H1, H2, ⟨%es0, HS0⟩⟩
      iframe HR Hg Ho H0 H1
      isplitl [HS0]
      · unfold owns; iexists _; isplitr
        swap; · iexact HS0
        ipureintro; exact View.read_writes_of_cover _ _ _ _ _ (scover6_B_0 c _ _ _ _ _ _ _ _ _ _ _ _ _ _)
      iexists _; iexact H2

theorem body_obligation6 (c : Dev nD) : BodyObligation (dat6 (F := F) V c) (defs₀ (F := F)) Variants.none () Set.univ := fun t => by
  rw [bigSep_W6, bigSep_W6]
  exact sound_body6 V c t

theorem hin6 (c : Dev nD) : Pipeline.ΦA spec6 c ⊢ (dat6 V c).Φ 0 := by
  rw [show (dat6 V c).Φ 0 = PhiS6 V c 0 (Nat.zero_le _) from rfl, PhiS6_zero V c 0 _ rfl]
  try exact Idealize.SL.BI.Entails.refl _

theorem Phi_out6 (c : Dev nD) (t : Fin (cfg6.N + 1)) (ht : t.val ≠ 0) : (dat6 V c).Φ t ⊢ Pipeline.ΦA spec6 c := by
  rw [show (dat6 V c).Φ t = PhiS6 V c t.val (Nat.le_of_lt_succ t.isLt) from rfl, PhiS6_pos V c _ _ ht, PhiA6_eq]
  iintro ⟨⟨HS0, HR⟩, Hg⟩
  isplitl [HS0 HR]
  · isplitl [HS0]
    · iexists _; iexact HS0
    iexact HR
  iexact Hg

theorem hout6 (c : Dev nD) : (dat6 V c).Φ (Fin.last cfg6.N) ⊢ Pipeline.ΦA spec6 c :=
  Phi_out6 V c _ (by rw [Fin.val_last]; have : cfg6.N = 10 := N_6; omega)

end Cert.KernelIdeal.Hand

end
-- ==== Proof.KI.Plain.lean ====
import proofs.«412905_j38783554683010_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev Lz : GSem nD τ sig → Finset Unit := fun _ => ∅
abbrev lvz : GSem nD τ sig → Unit → ℕ := fun _ _ => 0
abbrev Rst (c : Dev nD) : sProp 𝕄 := iprop((∃ r, prngReg c r) ∗ ∃ W, owes (c : Thread nD τ) (0 : CellTallies nD τ sig Unit) W)

/-- A region rewrites only its output arrays: any other buffer, an input array included, is as the region found it. -/
theorem withArrays_kept {cfg : Cfg sig Λ₀} {c : Dev nD} (dat : Dat τ (Elt F) Unit ℕ (UR sig nD τ) ℕ cfg c)
    (hinj : Function.Injective (Pipeline.arrRef cfg.spec)) (V : Valuation τ sig (Elt F))
    (hA : ∀ w, dat.A w = V (Proc.devRef .tc (Pipeline.arrRef cfg.spec w))) (b : Ref sig .tc)
    (hb : ∀ w, Pipeline.arrRef cfg.spec w = b → (cfg.win w).isOut = false) :
    Pipeline.withArrays cfg.spec c V (fun w => dat.arrAt w cfg.N) (Proc.devRef .tc b) = V (Proc.devRef .tc b) := by
  by_cases h : ∃ w, Pipeline.arrRef cfg.spec w = b
  · obtain ⟨w, rfl⟩ := h
    rw [Pipeline.withArrays_arr cfg.spec hinj c V _ w, dat.arrAt_in w (hb w rfl), hA]
  · exact Pipeline.withArrays_of_ne cfg.spec c V _ b fun w e => h ⟨w, e⟩

variable (pd : (p : Fin 7) → (c : Dev nD) → Dat τ (Elt F) Unit ℕ (UR sig nD τ) ℕ (cfgs p) c)

set_option backward.isDefEq.respectTransparency.types false in
/-- A kernel region as an item of the run: entered with every buffer at WE, it is left with its arrays at their final
    contents and every other buffer as entered. -/
def plainReg {p : Fin 7} (L : Pipeline.LaunchFacts (nD := nD) (τ := τ) cfgs p) (WE : Dev nD → Valuation τ sig (Elt F))
    (hq : ∀ c w, (pd p c).q w = fullShare) (howed : ∀ c t, (pd p c).owed t = 0) (hrec : ∀ c t, (pd p c).recorded t = Set.univ)
    (hA : ∀ c w, (pd p c).A w = WE c (Proc.devRef .tc (Pipeline.arrRef (cfgs p).spec w)))
    (hbody : ∀ c, Pipeline.BodyObligationLoose (pd p c) defs₀ Variants.none () Set.univ)
    (hΦi : ∀ c, Pipeline.ΦA (cfgs p).spec c ⊢ (pd p c).Φ 0)
    (hΦo : ∀ c, (pd p c).Φ (Fin.last _) ⊢ Pipeline.ΦA (cfgs p).spec c) :
    Pipeline.RegionSeg (pcfgs (F := F)) adm pd () defs₀ Variants.none Lz lvz p where
  win := L.win.to₀
  block_pos := L.block_pos
  stage_whole := L.stage_whole
  K := PEmpty
  osem k := k.elim
  ho := Pipeline.OwnSemFacts.none _
  hbody := hbody
  hwaits := Pipeline.hwaits_of_owed_zero _ _ _ _ Lz lvz p howed
  pre c := iprop(StableHlo.held (c : Thread nD τ) (Pipeline.ucRefs τ sig) (WE c) ∗ Rst c)
  post c := iprop(StableHlo.held (c : Thread nD τ) (Pipeline.ucRefs τ sig)
    (Pipeline.withArrays (cfgs p).spec c (WE c) fun w => (pd p c).arrAt w (cfgs p).N) ∗ Rst c)
  X c := iprop(∃ r, prngReg c r)
  Y c := iprop(∃ r, prngReg c r)
  Z c := Pipeline.unscopedRest (Ix := Unit) (Name := ℕ) (U := UR sig nD τ) (Lvl := ℕ) (cfgs p).spec c fun b => WE c b
  hentry c := by
    rw [Pipeline.ownSems0_none]
    have hsplit := Pipeline.arrays_of_unscopedBufs (p := p) (pcfgs (F := F)) adm pd L.win L.arr_whole c
      ((pd p c).share_full (hq c)) (fun b => WE c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c 0]
      icases HO with ⟨%W, HO⟩; iexists W; isplitr; · ipureintro; exact fun _ _ => Or.inl (hrec c 0 ▸ trivial)
      iexact HO
    isplitl [Hp]; · iexact Hp
    iexact Hrest
  hin c := by
    refine .trans ?_ (hΦi c)
    unfold Pipeline.ΦA
    iintro ⟨Hp, -, Hr⟩
    isplitl [Hr]; · iexact Hr
    iexact Hp
  hout c := by
    rw [Pipeline.ownSems0_none]
    refine (hΦo c).trans ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      L.win L.arr_whole c pd ((pd p c).share_full (hq c)) (fun b => WE c b)
      (fun b => Pipeline.withArrays (cfgs p).spec c (WE c) (fun w => (pd p c).arrAt w (cfgs p).N) b) ((pd p c).arrAt · (cfgs p).N)
      (fun w => (Pipeline.withArrays_arr (cfgs p).spec L.win.arr_inj c (WE c) (fun w => (pd p c).arrAt w (cfgs p).N) w).symm)
      (fun b hb => Pipeline.withArrays_of_ne (cfgs p).spec c _ _ b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c (Fin.last _)]
    icases HO with ⟨%W, -, HO⟩; iexists W; iexact HO

end Cert.KernelIdeal.Hand

end
-- ==== Proof.KI.RunDefs.lean ====
import proofs.«412905_j38783554683010_1_alg».proof.Proof.KI.Lin0
import proofs.«412905_j38783554683010_1_alg».proof.Proof.KI.Self1
import proofs.«412905_j38783554683010_1_alg».proof.Proof.KI.Lin2
import proofs.«412905_j38783554683010_1_alg».proof.Proof.KI.Self3
import proofs.«412905_j38783554683010_1_alg».proof.Proof.KI.Lin4
import proofs.«412905_j38783554683010_1_alg».proof.Proof.KI.Self5
import proofs.«412905_j38783554683010_1_alg».proof.Proof.KI.Reg6
import proofs.«412905_j38783554683010_1_alg».proof.Proof.KI.Plain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core c's buffers at launch; WEk and WXk are its buffers when region k is entered and left. -/
abbrev W0 : Dev nD → Valuation τ sig (Elt F) := fun c b => (s₀ m ρ).mem ((c : Dev nD), b)

abbrev WE0 : Dev nD → Valuation τ sig (Elt F) := fun c => StableHlo.after hostOps0 (W0 m ρ c)
abbrev UE0 : (c : Dev nD) → (b : Ref sig .tc) → Buf (Elt F) ((c : Thread nD τ).loc b) := fun c b => WE0 m ρ c b
def WX0 (c : Dev nD) : Valuation τ sig (Elt F) :=
  Pipeline.withArrays spec0 c (WE0 m ρ c) fun w => (dat0 (UE0 m ρ) c).arrAt w cfg0.N
theorem WX0_arr (c : Dev nD) (w : Fin cfg0.W) :
    WX0 m ρ c (Proc.devRef .tc (Pipeline.arrRef spec0 w)) = (dat0 (UE0 m ρ) c).arrAt w cfg0.N :=
  Pipeline.withArrays_arr spec0 launch0.win.arr_inj c _ _ w

abbrev WE1 : Dev nD → Valuation τ sig (Elt F) := fun c => StableHlo.after hostOps1 (WX0 m ρ c)
abbrev UE1 : (c : Dev nD) → (b : Ref sig .tc) → Buf (Elt F) ((c : Thread nD τ).loc b) := fun c b => WE1 m ρ c b
def WX1 (c : Dev nD) : Valuation τ sig (Elt F) :=
  Pipeline.withArrays spec1 c (WE1 m ρ c) fun w => (dat1 (UE1 m ρ) c).arrAt w cfg1.N
theorem WX1_arr (c : Dev nD) (w : Fin cfg1.W) :
    WX1 m ρ c (Proc.devRef .tc (Pipeline.arrRef spec1 w)) = (dat1 (UE1 m ρ) c).arrAt w cfg1.N :=
  Pipeline.withArrays_arr spec1 launch1.win.arr_inj c _ _ w

abbrev WE2 : Dev nD → Valuation τ sig (Elt F) := fun c => WX1 m ρ c
abbrev UE2 : (c : Dev nD) → (b : Ref sig .tc) → Buf (Elt F) ((c : Thread nD τ).loc b) := fun c b => WE2 m ρ c b
def WX2 (c : Dev nD) : Valuation τ sig (Elt F) :=
  Pipeline.withArrays spec2 c (WE2 m ρ c) fun w => (dat2 (UE2 m ρ) c).arrAt w cfg2.N
theorem WX2_arr (c : Dev nD) (w : Fin cfg2.W) :
    WX2 m ρ c (Proc.devRef .tc (Pipeline.arrRef spec2 w)) = (dat2 (UE2 m ρ) c).arrAt w cfg2.N :=
  Pipeline.withArrays_arr spec2 launch2.win.arr_inj c _ _ w

abbrev WE3 : Dev nD → Valuation τ sig (Elt F) := fun c => StableHlo.after hostOps3 (WX2 m ρ c)
abbrev UE3 : (c : Dev nD) → (b : Ref sig .tc) → Buf (Elt F) ((c : Thread nD τ).loc b) := fun c b => WE3 m ρ c b
def WX3 (c : Dev nD) : Valuation τ sig (Elt F) :=
  Pipeline.withArrays spec3 c (WE3 m ρ c) fun w => (dat3 (UE3 m ρ) c).arrAt w cfg3.N
theorem WX3_arr (c : Dev nD) (w : Fin cfg3.W) :
    WX3 m ρ c (Proc.devRef .tc (Pipeline.arrRef spec3 w)) = (dat3 (UE3 m ρ) c).arrAt w cfg3.N :=
  Pipeline.withArrays_arr spec3 launch3.win.arr_inj c _ _ w

abbrev WE4 : Dev nD → Valuation τ sig (Elt F) := fun c => WX3 m ρ c
abbrev UE4 : (c : Dev nD) → (b : Ref sig .tc) → Buf (Elt F) ((c : Thread nD τ).loc b) := fun c b => WE4 m ρ c b
def WX4 (c : Dev nD) : Valuation τ sig (Elt F) :=
  Pipeline.withArrays spec4 c (WE4 m ρ c) fun w => (dat4 (UE4 m ρ) c).arrAt w cfg4.N
theorem WX4_arr (c : Dev nD) (w : Fin cfg4.W) :
    WX4 m ρ c (Proc.devRef .tc (Pipeline.arrRef spec4 w)) = (dat4 (UE4 m ρ) c).arrAt w cfg4.N :=
  Pipeline.withArrays_arr spec4 launch4.win.arr_inj c _ _ w

abbrev WE5 : Dev nD → Valuation τ sig (Elt F) := fun c => StableHlo.after hostOps5 (WX4 m ρ c)
abbrev UE5 : (c : Dev nD) → (b : Ref sig .tc) → Buf (Elt F) ((c : Thread nD τ).loc b) := fun c b => WE5 m ρ c b
def WX5 (c : Dev nD) : Valuation τ sig (Elt F) :=
  Pipeline.withArrays spec5 c (WE5 m ρ c) fun w => (dat5 (UE5 m ρ) c).arrAt w cfg5.N
theorem WX5_arr (c : Dev nD) (w : Fin cfg5.W) :
    WX5 m ρ c (Proc.devRef .tc (Pipeline.arrRef spec5 w)) = (dat5 (UE5 m ρ) c).arrAt w cfg5.N :=
  Pipeline.withArrays_arr spec5 launch5.win.arr_inj c _ _ w

abbrev WE6 : Dev nD → Valuation τ sig (Elt F) := fun c => StableHlo.after hostOps6 (WX5 m ρ c)
abbrev UE6 : (c : Dev nD) → (b : Ref sig .tc) → Buf (Elt F) ((c : Thread nD τ).loc b) := fun c b => WE6 m ρ c b
def WX6 (c : Dev nD) : Valuation τ sig (Elt F) :=
  Pipeline.withArrays spec6 c (WE6 m ρ c) fun w => (dat6 (UE6 m ρ) c).arrAt w cfg6.N
theorem WX6_arr (c : Dev nD) (w : Fin cfg6.W) :
    WX6 m ρ c (Proc.devRef .tc (Pipeline.arrRef spec6 w)) = (dat6 (UE6 m ρ) c).arrAt w cfg6.N :=
  Pipeline.withArrays_arr spec6 launch6.win.arr_inj c _ _ w

abbrev WEnd : Dev nD → Valuation τ sig (Elt F) := fun c => StableHlo.after hostOps7 (WX6 m ρ c)

def pdats : (p : Fin 7) → (c : Dev nD) → Dat τ (Elt F) Unit ℕ (UR sig nD τ) ℕ (cfgs p) c
  | ⟨0, _⟩ => fun c => dat0 (UE0 m ρ) c
  | ⟨1, _⟩ => fun c => dat1 (UE1 m ρ) c
  | ⟨2, _⟩ => fun c => dat2 (UE2 m ρ) c
  | ⟨3, _⟩ => fun c => dat3 (UE3 m ρ) c
  | ⟨4, _⟩ => fun c => dat4 (UE4 m ρ) c
  | ⟨5, _⟩ => fun c => dat5 (UE5 m ρ) c
  | ⟨6, _⟩ => fun c => dat6 (UE6 m ρ) c

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none Lz lvz :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tn (c : Dev nD) : sProp 𝕄 := iprop(StableHlo.held (c : Thread nD τ) (Pipeline.ucRefs τ sig) (WEnd m ρ c) ∗ ∃ r, prngReg c r)

/-- The buffers at the fourteen boundaries of the run: at launch, then after each of the thirteen items of @main. -/
def Wb : ℕ → Dev nD → Valuation τ sig (Elt F)
  | 0 => W0 m ρ | 1 => WE0 m ρ | 2 => WX0 m ρ | 3 => WE1 m ρ | 4 => WX1 m ρ | 5 => WX2 m ρ | 6 => WE3 m ρ
  | 7 => WX3 m ρ | 8 => WX4 m ρ | 9 => WE5 m ρ | 10 => WX5 m ρ | 11 => WE6 m ρ | 12 => WX6 m ρ | _ => WEnd m ρ

/-- Item k leaves the buffer b alone: host operations do not write it; a region does not have it as an output array. -/
def leaves (b : Ref sig .tc) : ℕ → Bool
  | 0 => decide (b ∉ hostOps0_W)
  | 1 => decide (∀ w, Pipeline.arrRef cfg0.spec w = b → (cfg0.win w).isOut = false)
  | 2 => decide (b ∉ hostOps1_W)
  | 3 => decide (∀ w, Pipeline.arrRef cfg1.spec w = b → (cfg1.win w).isOut = false)
  | 4 => decide (∀ w, Pipeline.arrRef cfg2.spec w = b → (cfg2.win w).isOut = false)
  | 5 => decide (b ∉ hostOps3_W)
  | 6 => decide (∀ w, Pipeline.arrRef cfg3.spec w = b → (cfg3.win w).isOut = false)
  | 7 => decide (∀ w, Pipeline.arrRef cfg4.spec w = b → (cfg4.win w).isOut = false)
  | 8 => decide (b ∉ hostOps5_W)
  | 9 => decide (∀ w, Pipeline.arrRef cfg5.spec w = b → (cfg5.win w).isOut = false)
  | 10 => decide (b ∉ hostOps6_W)
  | 11 => decide (∀ w, Pipeline.arrRef cfg6.spec w = b → (cfg6.win w).isOut = false)
  | 12 => decide (b ∉ hostOps7_W)
  | _ => true

theorem step (c : Dev nD) (b : Ref sig .tc) : ∀ k, leaves b k = true →
    Wb m ρ (k + 1) c (Proc.devRef .tc b) = Wb m ρ k c (Proc.devRef .tc b)
  | 0, h => StableHlo.after_of_writes_sub hostOps0 _ hostOps0_writes (of_decide_eq_true h)
  | 1, h => withArrays_kept (dat0 (UE0 m ρ) c) launch0.win.arr_inj _ (A_eq0 (UE0 m ρ) c) b (of_decide_eq_true h)
  | 2, h => StableHlo.after_of_writes_sub hostOps1 _ hostOps1_writes (of_decide_eq_true h)
  | 3, h => withArrays_kept (dat1 (UE1 m ρ) c) launch1.win.arr_inj _ (A_eq1 (UE1 m ρ) c) b (of_decide_eq_true h)
  | 4, h => withArrays_kept (dat2 (UE2 m ρ) c) launch2.win.arr_inj _ (A_eq2 (UE2 m ρ) c) b (of_decide_eq_true h)
  | 5, h => StableHlo.after_of_writes_sub hostOps3 _ hostOps3_writes (of_decide_eq_true h)
  | 6, h => withArrays_kept (dat3 (UE3 m ρ) c) launch3.win.arr_inj _ (A_eq3 (UE3 m ρ) c) b (of_decide_eq_true h)
  | 7, h => withArrays_kept (dat4 (UE4 m ρ) c) launch4.win.arr_inj _ (A_eq4 (UE4 m ρ) c) b (of_decide_eq_true h)
  | 8, h => StableHlo.after_of_writes_sub hostOps5 _ hostOps5_writes (of_decide_eq_true h)
  | 9, h => withArrays_kept (dat5 (UE5 m ρ) c) launch5.win.arr_inj _ (A_eq5 (UE5 m ρ) c) b (of_decide_eq_true h)
  | 10, h => StableHlo.after_of_writes_sub hostOps6 _ hostOps6_writes (of_decide_eq_true h)
  | 11, h => withArrays_kept (dat6 (UE6 m ρ) c) launch6.win.arr_inj _ (A_eq6 (UE6 m ρ) c) b (of_decide_eq_true h)
  | 12, h => StableHlo.after_of_writes_sub hostOps7 _ hostOps7_writes (of_decide_eq_true h)
  | _ + 13, _ => rfl

/-- A buffer that every item between boundaries i and j leaves alone holds at j what it held at i. -/
theorem span (c : Dev nD) (b : Ref sig .tc) (i j : ℕ) (h : ∀ k, k < j → i ≤ k → leaves b k = true) (hij : i ≤ j) :
    Wb m ρ j c (Proc.devRef .tc b) = Wb m ρ i c (Proc.devRef .tc b) := by
  induction j, hij using Nat.le_induction with
  | base => rfl
  | succ j hij ih => exact (step m ρ c b j (h j j.lt_succ_self hij)).trans (ih fun k h1 h2 => h k (Nat.lt_succ_of_lt h1) h2)

end Cert.KernelIdeal.Hand

end
-- ==== Proof.KI.Run.lean ====
import proofs.«412905_j38783554683010_1_alg».proof.Proof.KI.RunDefs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The thirteen items of @main in order. -/
abbrev hsegs : List (Pipeline.Seg (pcfgs (F := F)) adm (pdats m ρ) () defs₀ Variants.none Lz lvz) :=
  [ .host (hseg hostOps0 hostOps0_sub hostOps0_fresh (W0 m ρ)),
    .region (plainReg (pdats m ρ) launch0 (WE0 m ρ) (fun _ _ => rfl) (fun _ _ => rfl) (fun _ _ => rfl) (fun _ _ => rfl)
      (fun c => (body_obligation0 (UE0 m ρ) c).loose) (fun _ => .rfl) (fun _ => .rfl)),
    .host (hseg hostOps1 hostOps1_sub hostOps1_fresh (WX0 m ρ)),
    .region (plainReg (pdats m ρ) launch1 (WE1 m ρ) (fun _ _ => rfl) (fun _ _ => rfl) (fun _ _ => rfl) (fun _ _ => rfl)
      (fun c => (body_obligation1 (UE1 m ρ) c).loose) (fun _ => .rfl) (fun _ => .rfl)),
    .region (plainReg (pdats m ρ) launch2 (WE2 m ρ) (fun _ _ => rfl) (fun _ _ => rfl) (fun _ _ => rfl) (fun _ _ => rfl)
      (fun c => (body_obligation2 (UE2 m ρ) c).loose) (fun _ => .rfl) (fun _ => .rfl)),
    .host (hseg hostOps3 hostOps3_sub hostOps3_fresh (WX2 m ρ)),
    .region (plainReg (pdats m ρ) launch3 (WE3 m ρ) (fun _ _ => rfl) (fun _ _ => rfl) (fun _ _ => rfl) (fun _ _ => rfl)
      (fun c => (body_obligation3 (UE3 m ρ) c).loose) (fun _ => .rfl) (fun _ => .rfl)),
    .region (plainReg (pdats m ρ) launch4 (WE4 m ρ) (fun _ _ => rfl) (fun _ _ => rfl) (fun _ _ => rfl) (fun _ _ => rfl)
      (fun c => (body_obligation4 (UE4 m ρ) c).loose) (fun _ => .rfl) (fun _ => .rfl)),
    .host (hseg hostOps5 hostOps5_sub hostOps5_fresh (WX4 m ρ)),
    .region (plainReg (pdats m ρ) launch5 (WE5 m ρ) (fun _ _ => rfl) (fun _ _ => rfl) (fun _ _ => rfl) (fun _ _ => rfl)
      (fun c => (body_obligation5 (UE5 m ρ) c).loose) (fun _ => .rfl) (fun _ => .rfl)),
    .host (hseg hostOps6 hostOps6_sub hostOps6_fresh (WX5 m ρ)),
    .region (plainReg (pdats m ρ) launch6 (WE6 m ρ) (fun _ _ => rfl) (fun _ _ => rfl) (fun _ _ => rfl) (fun _ _ => rfl)
      (fun c => (body_obligation6 (UE6 m ρ) c).loose) (hin6 (UE6 m ρ)) (hout6 (UE6 m ρ))),
    .host (hseg hostOps7 hostOps7_sub hostOps7_fresh (WX6 m ρ)) ]

set_option backward.isDefEq.respectTransparency.types false in
/-- Every weakly fair execution terminates, and every final memory holds each buffer at its last contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = WEnd m ρ c b) :=
  Pipeline.θ_run_regions_kit (pcfgs (F := F)) adm (pdats m ρ) () cellOf_inj emb₁ defs₀ Variants.none Lz lvz m ρ main (hsegs m ρ)
    (fun c Q => by
      rewrite [main_chain c, Pipeline.Seg.run_eq_chain,
        show (hsegs m ρ).map Pipeline.Seg.prog = [
          StableHlo.seq hostOps0,
          Prog.lift (.customCall (Pipeline.entry 0) ()),
          StableHlo.seq hostOps1,
          Prog.lift (.customCall (Pipeline.entry 1) ()),
          Prog.lift (.customCall (Pipeline.entry 2) ()),
          StableHlo.seq hostOps3,
          Prog.lift (.customCall (Pipeline.entry 3) ()),
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7 ] from rfl]
      exact .rfl)
    (by simp only [hsegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Rst c)) (Tₙ := Tn m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl,
      fun c => by
        show iprop(StableHlo.held (c : Thread nD τ) (Pipeline.ucRefs τ sig) (WEnd m ρ c) ∗ (∃ r, prngReg c r) ∗ ∃ W, owes (c : Thread nD τ) (0 : CellTallies nD τ sig Unit) W)
          ⊢ iprop((StableHlo.held (c : Thread nD τ) (Pipeline.ucRefs τ sig) (WEnd m ρ c) ∗ ∃ r, prngReg c r) ∗ ∃ W, owes (c : Thread nD τ) (0 : CellTallies nD τ sig Unit) W)
        iintro ⟨Hh, Hp, Ho⟩
        isplitl [Hh Hp]
        · isplitl [Hh]; · iexact Hh
          iexact Hp
        iexact Ho⟩)
    (hinit := by
      refine Pipeline.initEach Lz lvz fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = WEnd m ρ c b)
    (hfin := fun c s' => by
      iintro ⟨⟨Hh, -⟩, HSI⟩
      unfold StableHlo.held
      imodintro
      iapply (pointsTo_read_all (Pipeline.ucRefs τ sig) (fun b => (((c : Thread nD τ)).1, b)) (WEnd m ρ c) s')
      isplitl [Hh] <;> iassumption)
    (hQ := fun s h => h)

/-- A buffer no item writes ends as launched. -/
theorem end_kept {mem : (ℓ : Loc nD τ sig) → Buf (Elt F) ℓ} {c : Dev nD} (h : ∀ b ∈ Pipeline.ucRefs τ sig, mem (((c : Thread nD τ)).1, b) = WEnd m ρ c b)
    (b : Ref sig .tc) (hu : ¬ (Proc.devRef .tc b : DevRef τ sig).isScoped) (hk : ∀ k, k < 13 → 0 ≤ k → leaves b k = true) :
    mem ((c.tc : Thread nD τ).loc b) = m ((c.tc : Thread nD τ).loc b) :=
  (h _ (mem_uc b hu)).trans (span m ρ c b 0 13 hk (by decide))

/-- Every argument array holds in mem what it held at launch. -/
def argsKept (mem : (ℓ : Loc nD τ sig) → Buf (Elt F) ℓ) (c : Dev nD) : Prop :=
  mem ((c.tc : Thread nD τ).loc main_arg0) = m ((c.tc : Thread nD τ).loc main_arg0)
  ∧ mem ((c.tc : Thread nD τ).loc main_arg1) = m ((c.tc : Thread nD τ).loc main_arg1)
  ∧ mem ((c.tc : Thread nD τ).loc main_arg2) = m ((c.tc : Thread nD τ).loc main_arg2)
  ∧ mem ((c.tc : Thread nD τ).loc main_arg3) = m ((c.tc : Thread nD τ).loc main_arg3)
  ∧ mem ((c.tc : Thread nD τ).loc main_arg4) = m ((c.tc : Thread nD τ).loc main_arg4)
  ∧ mem ((c.tc : Thread nD τ).loc main_arg5) = m ((c.tc : Thread nD τ).loc main_arg5)
  ∧ mem ((c.tc : Thread nD τ).loc main_arg6) = m ((c.tc : Thread nD τ).loc main_arg6)
  ∧ mem ((c.tc : Thread nD τ).loc main_arg7) = m ((c.tc : Thread nD τ).loc main_arg7)
  ∧ mem ((c.tc : Thread nD τ).loc main_arg8) = m ((c.tc : Thread nD τ).loc main_arg8)
  ∧ mem ((c.tc : Thread nD τ).loc main_arg9) = m ((c.tc : Thread nD τ).loc main_arg9)
  ∧ mem ((c.tc : Thread nD τ).loc main_arg10) = m ((c.tc : Thread nD τ).loc main_arg10)

/-- Every final memory holds the result buffer at the last contents and each argument array as launched. -/
theorem run_res : θ_run defs (onTc (τ := τ) (main (F := F))) ⟨m, fun _ => 0, ρ⟩ (fun r => ∀ c : Dev nD,
      r.2.mem ((c.tc : Thread nD τ).loc main_v114) = WEnd m ρ c (Proc.devRef .tc main_v114) ∧ argsKept m r.2.mem c) :=
  (θ_run defs _ _).mono (fun r h c =>
    ⟨h c _ (mem_uc main_v114 (by decide)),
     end_kept m ρ (h c) main_arg0 (by decide) (by decide),
     end_kept m ρ (h c) main_arg1 (by decide) (by decide),
     end_kept m ρ (h c) main_arg2 (by decide) (by decide),
     end_kept m ρ (h c) main_arg3 (by decide) (by decide),
     end_kept m ρ (h c) main_arg4 (by decide) (by decide),
     end_kept m ρ (h c) main_arg5 (by decide) (by decide),
     end_kept m ρ (h c) main_arg6 (by decide) (by decide),
     end_kept m ρ (h c) main_arg7 (by decide) (by decide),
     end_kept m ρ (h c) main_arg8 (by decide) (by decide),
     end_kept m ρ (h c) main_arg9 (by decide) (by decide),
     end_kept m ρ (h c) main_arg10 (by decide) (by decide)⟩) (run_all m ρ)

theorem frame : θ_run defs (onTc (τ := τ) (main (F := F))) ⟨m, fun _ => 0, ρ⟩ (fun r => ∀ c : Dev nD, argsKept m r.2.mem c) :=
  (θ_run defs _ _).mono (fun _ h c => (h c).2) (run_res m ρ)

end Cert.KernelIdeal.Hand

end
-- ==== Proof.KI.LinVal0.lean ====
import proofs.«412905_j38783554683010_1_alg».proof.Proof.Gen.ReferenceIdeal.Read
import proofs.«412905_j38783554683010_1_alg».proof.Proof.KI.Lin0
import Idealize.ShloMosaic.Lib.Pipeline.Value
import Idealize.ShloMosaic.Lib.ValueIdx
import Idealize.ShloMosaic.PureOps.Ideal.Laws
import Idealize.ShloMosaic.Lib.StackMember

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open scoped BigOperators

def linE0 (X : Vec Ideal S50000x64 .f32) (W : Vec Ideal S64x128 .f32) (n : Fin 50000) (d : Fin 128) : EReal :=
  ∑ k : Fin 64, X (ix2 n k) * W (ix2 k d)

def linG0 (X : Vec Ideal S50000x64 .f32) (W : Vec Ideal S64x128 .f32) : Vec Ideal S50000x128 .f32 :=
  fun i => linE0 X W (i 0) (i 1)

theorem linG0_ix2 (X : Vec Ideal S50000x64 .f32) (W : Vec Ideal S64x128 .f32) (n : Fin 50000) (d : Fin 128) :
    linG0 X W (ix2 n d) = ∑ k : Fin 64, X (ix2 n k) * W (ix2 k d) := rfl

/-- A block product into a zero block is the host's product, which reads as the plain sum of products. -/
theorem pay0_apply (x : Vec Ideal S5000x64 .f32) (w : Vec Ideal S64x128 .f32) (p : Fin 5000) (q : Fin 128) :
    k0_pay1 (F := Ideal) x w (ix2 p q) = ∑ k : Fin 64, x (ix2 p k) * w (ix2 k q) := by
  unfold k0_pay1
  try simp only [shapeCast_self]
  refine (congrFun (matmul_zero_eq_dotGeneral dot_S5000x64_S64x128_S5000x128_1_0_0_1_n_n none x w) (ix2 p q)).trans ?_
  exact StackMember.dotGeneral_plain_apply none x w p q

theorem hz0 : (![0, 0] : Fin 2 → Nat) = fun _ => 0 := funext fun a => by fin_cases a <;> rfl

theorem out0_2_eq (x0 : Vec Ideal S5000x64 .f32) (x1 : Vec Ideal S64x128 .f32) : out0_2 x0 x1 = k0_pay1 x0 x1 := by
  unfold out0_2
  rw [View.canon_unit_zero hz0]
  simp only [View.ld_unit_zero (S := S5000x64) hz0, View.ld_unit_zero (S := S64x128) hz0]

theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem pay0_blk (X : Vec Ideal S50000x64 .f32) (W : Vec Ideal S64x128 .f32) (x : Vec Ideal S5000x64 .f32) (w : Vec Ideal S64x128 .f32) (b : Nat)
    (hx : ∀ (p : Fin 5000) (k : Fin 64) (n : Fin 50000), n.val = b * 5000 + p.val → x (ix2 p k) = X (ix2 n k))
    (hw : ∀ (k : Fin 64) (q : Fin 128), w (ix2 k q) = W (ix2 k q))
    (y : S5000x128.Idx) (i : S50000x128.Idx) (h0 : (i 0).val = b * 5000 + (y 0).val) (h1 : (i 1).val = (y 1).val) :
    k0_pay1 (F := Ideal) x w y = linG0 X W i := by
  obtain ⟨p, q, rfl⟩ : ∃ (p : Fin 5000) (q : Fin 128), y = ix2 p q := ⟨y 0, y 1, eq_ix2 y⟩
  obtain ⟨n, d, rfl⟩ : ∃ (n : Fin 50000) (d : Fin 128), i = ix2 n d := ⟨i 0, i 1, eq_ix2 i⟩
  obtain rfl : d = q := Fin.ext h1
  rw [pay0_apply, linG0_ix2]
  exact Finset.sum_congr rfl fun k _ => by rw [hx p k n h0, hw k d]

variable (V : (c : Dev nD) → (b : Ref sig .tc) → Buf (Elt Ideal) ((c : Thread nD τ).loc b))

theorem iblk0_0_apply (c : Dev nD) (t : Fin cfg0.N) (p : Fin 5000) (k : Fin 64) (n : Fin 50000) (hn : n.val = t.val * 5000 + p.val) :
    (iblk0 V c 0 t : Vec Ideal S5000x64 .f32) (ix2 p k) = (V c main_arg0 : Vec Ideal S50000x64 .f32) (ix2 n k) := by
  obtain ⟨e0, e1, -, -, -, -⟩ := idx_facts0 t
  show V c main_arg0 (((cfg0.win 0).blk t).view.emb (ix2 p k)) = V c main_arg0 (ix2 n k)
  congr 1
  funext a; apply Fin.ext
  match a with
  | ⟨0, _⟩ => show win0_0.index t (0 : Fin 2) * 5000 + 1 * p.val = n.val; omega
  | ⟨1, _⟩ => show win0_0.index t (1 : Fin 2) * 64 + 1 * k.val = k.val; omega

theorem iblk0_1_apply (c : Dev nD) (t : Fin cfg0.N) (k : Fin 64) (q : Fin 128) :
    (iblk0 V c 1 t : Vec Ideal S64x128 .f32) (ix2 k q) = (V c main_arg3 : Vec Ideal S64x128 .f32) (ix2 k q) := by
  obtain ⟨-, -, e0, e1, -, -⟩ := idx_facts0 t
  show V c main_arg3 (((cfg0.win 1).blk t).view.emb (ix2 k q)) = V c main_arg3 (ix2 k q)
  congr 1
  funext a; apply Fin.ext
  match a with
  | ⟨0, _⟩ => show win0_1.index t (0 : Fin 2) * 64 + 1 * k.val = k.val; omega
  | ⟨1, _⟩ => show win0_1.index t (1 : Fin 2) * 128 + 1 * q.val = q.val; omega

/-- What grid point t writes back is block t of the product of the two arrays. -/
theorem flushed0_2_eq (c : Dev nD) (t : Fin cfg0.N) :
    (dat0 (F := Ideal) V c).flushed 2 t = ((cfg0.win 2).blk t).view.read (Elt Ideal) (linG0 (V c main_arg0) (V c main_arg3)) := by
  show (cfg0.win 2).cut (grid0.coords t) ((dat0 V c).after 2 t) = _
  rw [after0_2, out0_2_eq]
  obtain ⟨-, -, -, -, e0, e1⟩ := idx_facts0 t
  funext j
  refine pay0_blk (V c main_arg0) (V c main_arg3) _ _ t.val (fun p k n hn => iblk0_0_apply V c t p k n hn) (fun k q => iblk0_1_apply V c t k q) _ _ ?_ ?_
  · show win0_2.index t (0 : Fin 2) * 5000 + 1 * (j 0).val = t.val * 5000 + (j 0).val
    omega
  · show win0_2.index t (1 : Fin 2) * 128 + 1 * (j 1).val = (j 1).val
    omega

theorem mem_blk0_2 (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v28).slice (win0_2.rect t)).set ↔ _
  rw [View.set_slice_whole, Rect.mem_set_unit]
  exact Iff.rfl

/-- Row r of the output array lies in the block of point r / 5000. -/
theorem arrcover0_2 (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  have hN : grid0.N = 10 := N_0
  obtain ⟨t, ht⟩ : ∃ t : Fin cfg0.N, t.val = (i 0).val / 5000 := ⟨⟨(i 0).val / 5000, by show (i 0).val / 5000 < grid0.N; omega⟩, rfl⟩
  obtain ⟨-, -, -, -, e0, e1⟩ := idx_facts0 t
  refine ⟨t, flush0_2 t, ?_⟩
  rw [mem_blk0_2]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

theorem lin0_prod (c : Dev nD) : (dat0 (F := Ideal) V c).arrAt 2 cfg0.N = linG0 (V c main_arg0) (V c main_arg3) :=
  (dat0 V c).arrAt_eq_of_cover 2 (linG0 (V c main_arg0) (V c main_arg3)) (fun t _ => flushed0_2_eq V c t) arrcover0_2

/-- The reference's product is the same plain sum of products. -/
theorem linG0_eq_host (X : Vec Ideal S50000x64 .f32) (W : Vec Ideal S64x128 .f32) :
    linG0 X W = Host.dotGeneral (F := Ideal) (φ₁ := .f32) (φ₂ := .f32) Cert.ReferenceIdeal.dot_S50000x64_S64x128_S50000x128_1_0_0_1_n_n none X W := by
  funext i
  obtain ⟨n, d, rfl⟩ : ∃ (n : Fin 50000) (d : Fin 128), i = ix2 n d := ⟨i 0, i 1, eq_ix2 i⟩
  exact (StackMember.dotGeneral_plain_apply none X W n d).symm

/-- After the region the output array is the host's product of the two arrays the region read. -/
theorem lin0_arr (c : Dev nD) :
    (dat0 (F := Ideal) V c).arrAt 2 cfg0.N
      = Host.dotGeneral (F := Ideal) (φ₁ := .f32) (φ₂ := .f32) Cert.ReferenceIdeal.dot_S50000x64_S64x128_S50000x128_1_0_0_1_n_n none (V c main_arg0) (V c main_arg3) :=
  (lin0_prod V c).trans (linG0_eq_host (V c main_arg0) (V c main_arg3))

end Cert.KernelIdeal.Hand

end
-- ==== Proof.KI.LinVal2.lean ====
import proofs.«412905_j38783554683010_1_alg».proof.Proof.Gen.ReferenceIdeal.Read
import proofs.«412905_j38783554683010_1_alg».proof.Proof.KI.Lin2
import Idealize.ShloMosaic.Lib.Pipeline.Value
import Idealize.ShloMosaic.Lib.ValueIdx
import Idealize.ShloMosaic.PureOps.Ideal.Laws
import Idealize.ShloMosaic.Lib.StackMember

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open scoped BigOperators

def linE2 (X : Vec Ideal S50000x128 .f32) (W : Vec Ideal S128x128 .f32) (n : Fin 50000) (d : Fin 128) : EReal :=
  ∑ k : Fin 128, X (ix2 n k) * W (ix2 k d)

def linG2 (X : Vec Ideal S50000x128 .f32) (W : Vec Ideal S128x128 .f32) : Vec Ideal S50000x128 .f32 :=
  fun i => linE2 X W (i 0) (i 1)

theorem linG2_ix2 (X : Vec Ideal S50000x128 .f32) (W : Vec Ideal S128x128 .f32) (n : Fin 50000) (d : Fin 128) :
    linG2 X W (ix2 n d) = ∑ k : Fin 128, X (ix2 n k) * W (ix2 k d) := rfl

/-- A block product into a zero block is the host's product, which reads as the plain sum of products. -/
theorem pay2_apply (x : Vec Ideal S5000x128 .f32) (w : Vec Ideal S128x128 .f32) (p : Fin 5000) (q : Fin 128) :
    k2_pay1 (F := Ideal) x w (ix2 p q) = ∑ k : Fin 128, x (ix2 p k) * w (ix2 k q) := by
  unfold k2_pay1
  try simp only [shapeCast_self]
  refine (congrFun (matmul_zero_eq_dotGeneral dot_S5000x128_S128x128_S5000x128_1_0_0_1_n_n none x w) (ix2 p q)).trans ?_
  exact StackMember.dotGeneral_plain_apply none x w p q

theorem hz2 : (![0, 0] : Fin 2 → Nat) = fun _ => 0 := funext fun a => by fin_cases a <;> rfl

theorem out2_2_eq (x0 : Vec Ideal S5000x128 .f32) (x1 : Vec Ideal S128x128 .f32) : out2_2 x0 x1 = k2_pay1 x0 x1 := by
  unfold out2_2
  rw [View.canon_unit_zero hz2]
  simp only [View.ld_unit_zero (S := S5000x128) hz2, View.ld_unit_zero (S := S128x128) hz2]

theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

theorem pay2_blk (X : Vec Ideal S50000x128 .f32) (W : Vec Ideal S128x128 .f32) (x : Vec Ideal S5000x128 .f32) (w : Vec Ideal S128x128 .f32) (b : Nat)
    (hx : ∀ (p : Fin 5000) (k : Fin 128) (n : Fin 50000), n.val = b * 5000 + p.val → x (ix2 p k) = X (ix2 n k))
    (hw : ∀ (k : Fin 128) (q : Fin 128), w (ix2 k q) = W (ix2 k q))
    (y : S5000x128.Idx) (i : S50000x128.Idx) (h0 : (i 0).val = b * 5000 + (y 0).val) (h1 : (i 1).val = (y 1).val) :
    k2_pay1 (F := Ideal) x w y = linG2 X W i := by
  obtain ⟨p, q, rfl⟩ : ∃ (p : Fin 5000) (q : Fin 128), y = ix2 p q := ⟨y 0, y 1, eq_ix2 y⟩
  obtain ⟨n, d, rfl⟩ : ∃ (n : Fin 50000) (d : Fin 128), i = ix2 n d := ⟨i 0, i 1, eq_ix2 i⟩
  obtain rfl : d = q := Fin.ext h1
  rw [pay2_apply, linG2_ix2]
  exact Finset.sum_congr rfl fun k _ => by rw [hx p k n h0, hw k d]

variable (V : (c : Dev nD) → (b : Ref sig .tc) → Buf (Elt Ideal) ((c : Thread nD τ).loc b))

theorem iblk2_0_apply (c : Dev nD) (t : Fin cfg2.N) (p : Fin 5000) (k : Fin 128) (n : Fin 50000) (hn : n.val = t.val * 5000 + p.val) :
    (iblk2 V c 0 t : Vec Ideal S5000x128 .f32) (ix2 p k) = (V c main_v43 : Vec Ideal S50000x128 .f32) (ix2 n k) := by
  obtain ⟨e0, e1, -, -, -, -⟩ := idx_facts2 t
  show V c main_v43 (((cfg2.win 0).blk t).view.emb (ix2 p k)) = V c main_v43 (ix2 n k)
  congr 1
  funext a; apply Fin.ext
  match a with
  | ⟨0, _⟩ => show win2_0.index t (0 : Fin 2) * 5000 + 1 * p.val = n.val; omega
  | ⟨1, _⟩ => show win2_0.index t (1 : Fin 2) * 128 + 1 * k.val = k.val; omega

theorem iblk2_1_apply (c : Dev nD) (t : Fin cfg2.N) (k : Fin 128) (q : Fin 128) :
    (iblk2 V c 1 t : Vec Ideal S128x128 .f32) (ix2 k q) = (V c main_arg5 : Vec Ideal S128x128 .f32) (ix2 k q) := by
  obtain ⟨-, -, e0, e1, -, -⟩ := idx_facts2 t
  show V c main_arg5 (((cfg2.win 1).blk t).view.emb (ix2 k q)) = V c main_arg5 (ix2 k q)
  congr 1
  funext a; apply Fin.ext
  match a with
  | ⟨0, _⟩ => show win2_1.index t (0 : Fin 2) * 128 + 1 * k.val = k.val; omega
  | ⟨1, _⟩ => show win2_1.index t (1 : Fin 2) * 128 + 1 * q.val = q.val; omega

/-- What grid point t writes back is block t of the product of the two arrays. -/
theorem flushed2_2_eq (c : Dev nD) (t : Fin cfg2.N) :
    (dat2 (F := Ideal) V c).flushed 2 t = ((cfg2.win 2).blk t).view.read (Elt Ideal) (linG2 (V c main_v43) (V c main_arg5)) := by
  show (cfg2.win 2).cut (grid2.coords t) ((dat2 V c).after 2 t) = _
  rw [after2_2, out2_2_eq]
  obtain ⟨-, -, -, -, e0, e1⟩ := idx_facts2 t
  funext j
  refine pay2_blk (V c main_v43) (V c main_arg5) _ _ t.val (fun p k n hn => iblk2_0_apply V c t p k n hn) (fun k q => iblk2_1_apply V c t k q) _ _ ?_ ?_
  · show win2_2.index t (0 : Fin 2) * 5000 + 1 * (j 0).val = t.val * 5000 + (j 0).val
    omega
  · show win2_2.index t (1 : Fin 2) * 128 + 1 * (j 1).val = (j 1).val
    omega

theorem mem_blk2_2 (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v44).slice (win2_2.rect t)).set ↔ _
  rw [View.set_slice_whole, Rect.mem_set_unit]
  exact Iff.rfl

/-- Row r of the output array lies in the block of point r / 5000. -/
theorem arrcover2_2 (i : S50000x128.Idx) : ∃ t : Fin cfg2.N, (cfg2.win 2).flush t = true ∧ i ∈ ((cfg2.win 2).blk t).view.set := by
  have hi0 : (i 0).val < 50000 := (i 0).isLt
  have hi1 : (i 1).val < 128 := (i 1).isLt
  have hN : grid2.N = 10 := N_2
  obtain ⟨t, ht⟩ : ∃ t : Fin cfg2.N, t.val = (i 0).val / 5000 := ⟨⟨(i 0).val / 5000, by show (i 0).val / 5000 < grid2.N; omega⟩, rfl⟩
  obtain ⟨-, -, -, -, e0, e1⟩ := idx_facts2 t
  refine ⟨t, flush2_2 t, ?_⟩
  rw [mem_blk2_2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

theorem lin2_prod (c : Dev nD) : (dat2 (F := Ideal) V c).arrAt 2 cfg2.N = linG2 (V c main_v43) (V c main_arg5) :=
  (dat2 V c).arrAt_eq_of_cover 2 (linG2 (V c main_v43) (V c main_arg5)) (fun t _ => flushed2_2_eq V c t) arrcover2_2

/-- The reference's product is the same plain sum of products. -/
theorem linG2_eq_host (X : Vec Ideal S50000x128 .f32) (W : Vec Ideal S128x128 .f32) :
    linG2 X W = Host.dotGeneral (F := Ideal) (φ₁ := .f32) (φ₂ := .f32) Cert.ReferenceIdeal.dot_S50000x128_S128x128_S50000x128_1_0_0_1_n_n none X W := by
  funext i
  obtain ⟨n, d, rfl⟩ : ∃ (n : Fin 50000) (d : Fin 128), i = ix2 n d := ⟨i 0, i 1, eq_ix2 i⟩
  exact (StackMember.dotGeneral_plain_apply none X W n d).symm

/-- After the region the output array is the host's product of the two arrays the region read. -/
theorem lin2_arr (c : Dev nD) :
    (dat2 (F := Ideal) V c).arrAt 2 cfg2.N
      = Host.dotGeneral (F := Ideal) (φ₁ := .f32) (φ₂ := .f32) Cert.ReferenceIdeal.dot_S50000x128_S128x128_S50000x128_1_0_0_1_n_n none (V c main_v43) (V c main_arg5) :=
  (lin2_prod V c).trans (linG2_eq_host (V c main_v43) (V c main_arg5))

end Cert.KernelIdeal.Hand

end
-- ==== Proof.KI.LinVal4.lean ====
import proofs.«412905_j38783554683010_1_alg».proof.Proof.Gen.ReferenceIdeal.Read
import proofs.«412905_j38783554683010_1_alg».proof.Proof.KI.Lin4
import Idealize.ShloMosaic.Lib.Pipeline.Value
import Idealize.ShloMosaic.Lib.ValueIdx
import Idealize.ShloMosaic.PureOps.Ideal.Laws
import Idealize.ShloMosaic.Lib.StackMember

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open scoped BigOperators

def linE4 (X : Vec Ideal S50000x128 .f32) (W : Vec Ideal S128x128 .f32) (n : Fin 50000) (d : Fin 128) : EReal :=
  ∑ k : Fin 128, X (ix2 n k) * W (ix2 k d)

def linG4 (X : Vec Ideal S50000x128 .f32) (W : Vec Ideal S128x128 .f32) : Vec Ideal S50000x128 .f32 :=
  fun i => linE4 X W (i 0) (i 1)

theorem linG4_ix2 (X : Vec Ideal S50000x128 .f32) (W : Vec Ideal S128x128 .f32) (n : Fin 50000) (d : Fin 128) :
    linG4 X W (ix2 n d) = ∑ k : Fin 128, X (ix2 n k) * W (ix2 k d) := rfl

/-- A block product into a zero block is the host's product, which reads as the plain sum of products. -/
theorem pay4_apply (x : Vec Ideal S5000x128 .f32) (w : Vec Ideal S128x128 .f32) (p : Fin 5000) (q : Fin 128) :
    k4_pay1 (F := Ideal) x w (ix2 p q) = ∑ k : Fin 128, x (ix2 p k) * w (ix2 k q) := by
  unfold k4_pay1
  try simp only [shapeCast_self]
  refine (congrFun (matmul_zero_eq_dotGeneral dot_S5000x128_S128x128_S5000x128_1_0_0_1_n_n none x w) (ix2 p q)).trans ?_
  exact StackMember.dotGeneral_plain_apply none x w p q

theorem hz4 : (![0, 0] : Fin 2 → Nat) = fun _ => 0 := funext fun a => by fin_cases a <;> rfl

theorem out4_2_eq (x0 : Vec Ideal S5000x128 .f32) (x1 : Vec Ideal S128x128 .f32) : out4_2 x0 x1 = k4_pay1 x0 x1 := by
  unfold out4_2
  rw [View.canon_unit_zero hz4]
  simp only [View.ld_unit_zero (S := S5000x128) hz4, View.ld_unit_zero (S := S128x128) hz4]

theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

theorem pay4_blk (X : Vec Ideal S50000x128 .f32) (W : Vec Ideal S128x128 .f32) (x : Vec Ideal S5000x128 .f32) (w : Vec Ideal S128x128 .f32) (b : Nat)
    (hx : ∀ (p : Fin 5000) (k : Fin 128) (n : Fin 50000), n.val = b * 5000 + p.val → x (ix2 p k) = X (ix2 n k))
    (hw : ∀ (k : Fin 128) (q : Fin 128), w (ix2 k q) = W (ix2 k q))
    (y : S5000x128.Idx) (i : S50000x128.Idx) (h0 : (i 0).val = b * 5000 + (y 0).val) (h1 : (i 1).val = (y 1).val) :
    k4_pay1 (F := Ideal) x w y = linG4 X W i := by
  obtain ⟨p, q, rfl⟩ : ∃ (p : Fin 5000) (q : Fin 128), y = ix2 p q := ⟨y 0, y 1, eq_ix2 y⟩
  obtain ⟨n, d, rfl⟩ : ∃ (n : Fin 50000) (d : Fin 128), i = ix2 n d := ⟨i 0, i 1, eq_ix2 i⟩
  obtain rfl : d = q := Fin.ext h1
  rw [pay4_apply, linG4_ix2]
  exact Finset.sum_congr rfl fun k _ => by rw [hx p k n h0, hw k d]

variable (V : (c : Dev nD) → (b : Ref sig .tc) → Buf (Elt Ideal) ((c : Thread nD τ).loc b))

theorem iblk4_0_apply (c : Dev nD) (t : Fin cfg4.N) (p : Fin 5000) (k : Fin 128) (n : Fin 50000) (hn : n.val = t.val * 5000 + p.val) :
    (iblk4 V c 0 t : Vec Ideal S5000x128 .f32) (ix2 p k) = (V c main_v59 : Vec Ideal S50000x128 .f32) (ix2 n k) := by
  obtain ⟨e0, e1, -, -, -, -⟩ := idx_facts4 t
  show V c main_v59 (((cfg4.win 0).blk t).view.emb (ix2 p k)) = V c main_v59 (ix2 n k)
  congr 1
  funext a; apply Fin.ext
  match a with
  | ⟨0, _⟩ => show win4_0.index t (0 : Fin 2) * 5000 + 1 * p.val = n.val; omega
  | ⟨1, _⟩ => show win4_0.index t (1 : Fin 2) * 128 + 1 * k.val = k.val; omega

theorem iblk4_1_apply (c : Dev nD) (t : Fin cfg4.N) (k : Fin 128) (q : Fin 128) :
    (iblk4 V c 1 t : Vec Ideal S128x128 .f32) (ix2 k q) = (V c main_arg7 : Vec Ideal S128x128 .f32) (ix2 k q) := by
  obtain ⟨-, -, e0, e1, -, -⟩ := idx_facts4 t
  show V c main_arg7 (((cfg4.win 1).blk t).view.emb (ix2 k q)) = V c main_arg7 (ix2 k q)
  congr 1
  funext a; apply Fin.ext
  match a with
  | ⟨0, _⟩ => show win4_1.index t (0 : Fin 2) * 128 + 1 * k.val = k.val; omega
  | ⟨1, _⟩ => show win4_1.index t (1 : Fin 2) * 128 + 1 * q.val = q.val; omega

/-- What grid point t writes back is block t of the product of the two arrays. -/
theorem flushed4_2_eq (c : Dev nD) (t : Fin cfg4.N) :
    (dat4 (F := Ideal) V c).flushed 2 t = ((cfg4.win 2).blk t).view.read (Elt Ideal) (linG4 (V c main_v59) (V c main_arg7)) := by
  show (cfg4.win 2).cut (grid4.coords t) ((dat4 V c).after 2 t) = _
  rw [after4_2, out4_2_eq]
  obtain ⟨-, -, -, -, e0, e1⟩ := idx_facts4 t
  funext j
  refine pay4_blk (V c main_v59) (V c main_arg7) _ _ t.val (fun p k n hn => iblk4_0_apply V c t p k n hn) (fun k q => iblk4_1_apply V c t k q) _ _ ?_ ?_
  · show win4_2.index t (0 : Fin 2) * 5000 + 1 * (j 0).val = t.val * 5000 + (j 0).val
    omega
  · show win4_2.index t (1 : Fin 2) * 128 + 1 * (j 1).val = (j 1).val
    omega

theorem mem_blk4_2 (t : Fin cfg4.N) (i : S50000x128.Idx) :
    i ∈ ((cfg4.win 2).blk t).view.set ↔ ∀ a : Fin 2, win4_2.index t a * S5000x128.size a ≤ (i a).val ∧ (i a).val < win4_2.index t a * S5000x128.size a + S5000x128.size a := by
  show i ∈ ((View.whole main_v60).slice (win4_2.rect t)).set ↔ _
  rw [View.set_slice_whole, Rect.mem_set_unit]
  exact Iff.rfl

/-- Row r of the output array lies in the block of point r / 5000. -/
theorem arrcover4_2 (i : S50000x128.Idx) : ∃ t : Fin cfg4.N, (cfg4.win 2).flush t = true ∧ i ∈ ((cfg4.win 2).blk t).view.set := by
  have hi0 : (i 0).val < 50000 := (i 0).isLt
  have hi1 : (i 1).val < 128 := (i 1).isLt
  have hN : grid4.N = 10 := N_4
  obtain ⟨t, ht⟩ : ∃ t : Fin cfg4.N, t.val = (i 0).val / 5000 := ⟨⟨(i 0).val / 5000, by show (i 0).val / 5000 < grid4.N; omega⟩, rfl⟩
  obtain ⟨-, -, -, -, e0, e1⟩ := idx_facts4 t
  refine ⟨t, flush4_2 t, ?_⟩
  rw [mem_blk4_2]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 128 ≤ (i 1).val ∧ (i 1).val < win4_2.index t (1 : Fin 2) * 128 + 128; omega

theorem lin4_prod (c : Dev nD) : (dat4 (F := Ideal) V c).arrAt 2 cfg4.N = linG4 (V c main_v59) (V c main_arg7) :=
  (dat4 V c).arrAt_eq_of_cover 2 (linG4 (V c main_v59) (V c main_arg7)) (fun t _ => flushed4_2_eq V c t) arrcover4_2

/-- The reference's product is the same plain sum of products. -/
theorem linG4_eq_host (X : Vec Ideal S50000x128 .f32) (W : Vec Ideal S128x128 .f32) :
    linG4 X W = Host.dotGeneral (F := Ideal) (φ₁ := .f32) (φ₂ := .f32) Cert.ReferenceIdeal.dot_S50000x128_S128x128_S50000x128_1_0_0_1_n_n none X W := by
  funext i
  obtain ⟨n, d, rfl⟩ : ∃ (n : Fin 50000) (d : Fin 128), i = ix2 n d := ⟨i 0, i 1, eq_ix2 i⟩
  exact (StackMember.dotGeneral_plain_apply none X W n d).symm

/-- After the region the output array is the host's product of the two arrays the region read. -/
theorem lin4_arr (c : Dev nD) :
    (dat4 (F := Ideal) V c).arrAt 2 cfg4.N
      = Host.dotGeneral (F := Ideal) (φ₁ := .f32) (φ₂ := .f32) Cert.ReferenceIdeal.dot_S50000x128_S128x128_S50000x128_1_0_0_1_n_n none (V c main_v59) (V c main_arg7) :=
  (lin4_prod V c).trans (linG4_eq_host (V c main_v59) (V c main_arg7))

end Cert.KernelIdeal.Hand

end
-- ==== Proof.KI.SelfExpr.lean ====
import proofs.«412905_j38783554683010_1_alg».proof.Proof.Gen.KernelIdeal
import proofs.«412905_j38783554683010_1_alg».proof.Proof.Gen.ReferenceIdeal
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.ValueIdx

variable {F : FTy → Type} [FloatOps F]

section Spread
variable {α : Type}

theorem broadcastTo_col {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem broadcastInDim_col {a b : ℕ} (v : (⟨2, ![a, 1]⟩ : Shape).Idx → α)
    (h : (⟨2, ![a, 1]⟩ : Shape).BroadcastsInDim ⟨2, ![a, b]⟩ (![0, 1] : Fin 2 → Fin 2))
    (p : Fin a) (c : Fin b) : broadcastInDim ⟨2, ![a, b]⟩ (![0, 1] : Fin 2 → Fin 2) h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

theorem broadcastInDim_row {a b : ℕ} (v : (⟨2, ![1, b]⟩ : Shape).Idx → α)
    (h : (⟨2, ![1, b]⟩ : Shape).BroadcastsInDim ⟨2, ![a, b]⟩ (![0, 1] : Fin 2 → Fin 2))
    (p : Fin a) (c : Fin b) : broadcastInDim ⟨2, ![a, b]⟩ (![0, 1] : Fin 2 → Fin 2) h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

end Spread

/-- One element of the fused pass: max((x + h · d) + b, 0). -/
def selfElem (x h d b : Elt F .f32) : Elt F .f32 :=
  FloatOps.maximumf (FloatOps.addf (FloatOps.addf x (FloatOps.mulf h d)) b) (FloatOps.ofBits .f32 0x00000000#32)

/-- The same over whole arrays in the host's operations: the column spread over the lanes, the bias row over the rows. -/
def selfRef (agg hw : S50000x128.Idx → Elt F .f32) (d2 : S50000x1.Idx → Elt F .f32) (b : S1x128.Idx → Elt F .f32) :
    S50000x128.Idx → Elt F .f32 :=
  maximumf (addf (addf agg (mulf hw
        (broadcastInDim Cert.ReferenceIdeal.S50000x128 ![0, 1] Cert.ReferenceIdeal.Gen.bcast_S50000x1_S50000x128_0_1 d2)))
      (broadcastInDim Cert.ReferenceIdeal.S50000x128 ![0, 1] Cert.ReferenceIdeal.Gen.bcast_S1x128_S50000x128_0_1 b))
    (broadcastInDim Cert.ReferenceIdeal.S50000x128 ![] Cert.ReferenceIdeal.Gen.bcast_S_S50000x128
      (constant (F := F) Cert.ReferenceIdeal.S_ .f32 0x00000000#32))

theorem selfRef_apply (agg hw : S50000x128.Idx → Elt F .f32) (d2 : S50000x1.Idx → Elt F .f32) (b : S1x128.Idx → Elt F .f32)
    (n : Fin 50000) (d : Fin 128) :
    selfRef agg hw d2 b (ix2 n d) = selfElem (agg (ix2 n d)) (hw (ix2 n d)) (d2 (ix2 n (0 : Fin 1))) (b (ix2 (0 : Fin 1) d)) := by
  unfold selfRef selfElem
  show FloatOps.maximumf (FloatOps.addf (FloatOps.addf (agg (ix2 n d)) (FloatOps.mulf (hw (ix2 n d))
      (broadcastInDim (⟨2, ![50000, 128]⟩ : Shape) (![0, 1] : Fin 2 → Fin 2) Cert.ReferenceIdeal.Gen.bcast_S50000x1_S50000x128_0_1 d2 (ix2 n d))))
      (broadcastInDim (⟨2, ![50000, 128]⟩ : Shape) (![0, 1] : Fin 2 → Fin 2) Cert.ReferenceIdeal.Gen.bcast_S1x128_S50000x128_0_1 b (ix2 n d))) _ = _
  rw [broadcastInDim_col d2, broadcastInDim_row b]
  rfl

end Cert.KernelIdeal.Hand

end
-- ==== Proof.KI.SelfVal1.lean ====
import proofs.«412905_j38783554683010_1_alg».proof.Proof.KI.Self1
import proofs.«412905_j38783554683010_1_alg».proof.Proof.KI.SelfExpr
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable {F : FTy → Type} [FloatOps F]

/-- At (p, q) the stored value reads the two blocks there, the column at row p and the bias row at lane q. -/
theorem pay1_apply (x0 x1 : Vec F S5000x128 .f32) (x2 : Vec F S5000x1 .f32) (x3 : Vec F S1x128 .f32) (p : Fin 5000) (q : Fin 128) :
    k1_pay1 x0 x1 x2 x3 (ix2 p q) = selfElem (x0 (ix2 p q)) (x1 (ix2 p q)) (x2 (ix2 p (0 : Fin 1))) (x3 (ix2 (0 : Fin 1) q)) := by
  unfold k1_pay1 selfElem
  simp only [shapeCast_self]
  show FloatOps.maximumf (FloatOps.addf (FloatOps.addf (x0 (ix2 p q)) (FloatOps.mulf (x1 (ix2 p q))
      (broadcastTo S5000x128 x2 broadcasts_S5000x1_S5000x128 (ix2 p q)))) (broadcastTo S5000x128 x3 broadcasts_S1x128_S5000x128 (ix2 p q))) _ = _
  rw [broadcastTo_col x2, broadcastTo_1b_ab_apply x3]
  rfl

variable (V : (c : Dev nD) → (b : Ref sig .tc) → Buf (Elt F) ((c : Thread nD τ).loc b))

theorem hz1 : (![0, 0] : Fin 2 → Nat) = fun _ => 0 := funext fun a => by fin_cases a <;> rfl

theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

theorem iblk1_0_apply (c : Dev nD) (t : Fin cfg1.N) (x : S5000x128.Idx) (k : S50000x128.Idx)
    (hk0 : (k 0).val = 5000 * t.val + (x 0).val) (hk1 : (k 1).val = (x 1).val) :
    (iblk1 V c 0 t : Vec F S5000x128 .f32) x = (V c main_v41 : S50000x128.Idx → Elt F .f32) k := by
  obtain ⟨e0, e1, -⟩ := idx_facts1 t
  unfold iblk1
  rw [View.read_apply]
  show V c main_v41 _ = V c main_v41 _
  congr 1
  funext a
  apply Fin.ext
  match a with
  | ⟨0, _⟩ => show win1_0.index t 0 * 5000 + 1 * (x 0).val = (k 0).val; rw [e0, hk0]; omega
  | ⟨1, _⟩ => show win1_0.index t 1 * 128 + 1 * (x 1).val = (k 1).val; rw [e1, hk1]; omega

theorem iblk1_1_apply (c : Dev nD) (t : Fin cfg1.N) (x : S5000x128.Idx) (k : S50000x128.Idx)
    (hk0 : (k 0).val = 5000 * t.val + (x 0).val) (hk1 : (k 1).val = (x 1).val) :
    (iblk1 V c 1 t : Vec F S5000x128 .f32) x = (V c main_v28 : S50000x128.Idx → Elt F .f32) k := by
  obtain ⟨-, -, e0, e1, -⟩ := idx_facts1 t
  unfold iblk1
  rw [View.read_apply]
  show V c main_v28 _ = V c main_v28 _
  congr 1
  funext a
  apply Fin.ext
  match a with
  | ⟨0, _⟩ => show win1_1.index t 0 * 5000 + 1 * (x 0).val = (k 0).val; rw [e0, hk0]; omega
  | ⟨1, _⟩ => show win1_1.index t 1 * 128 + 1 * (x 1).val = (k 1).val; rw [e1, hk1]; omega

theorem iblk1_2_apply (c : Dev nD) (t : Fin cfg1.N) (x : S5000x1.Idx) (k : S50000x1.Idx)
    (hk0 : (k 0).val = 5000 * t.val + (x 0).val) (hk1 : (k 1).val = (x 1).val) :
    (iblk1 V c 2 t : Vec F S5000x1 .f32) x = (V c main_v27 : S50000x1.Idx → Elt F .f32) k := by
  obtain ⟨-, -, -, -, e0, e1, -⟩ := idx_facts1 t
  unfold iblk1
  rw [View.read_apply]
  show V c main_v27 _ = V c main_v27 _
  congr 1
  funext a
  apply Fin.ext
  match a with
  | ⟨0, _⟩ => show win1_2.index t 0 * 5000 + 1 * (x 0).val = (k 0).val; rw [e0, hk0]; omega
  | ⟨1, _⟩ => show win1_2.index t 1 * 1 + 1 * (x 1).val = (k 1).val; rw [e1, hk1]; omega

theorem iblk1_3_apply (c : Dev nD) (t : Fin cfg1.N) (x : S1x128.Idx) (k : S1x128.Idx)
    (hk0 : (k 0).val = (x 0).val) (hk1 : (k 1).val = (x 1).val) :
    (iblk1 V c 3 t : Vec F S1x128 .f32) x = (V c main_v42 : S1x128.Idx → Elt F .f32) k := by
  obtain ⟨-, -, -, -, -, -, e0, e1, -⟩ := idx_facts1 t
  unfold iblk1
  rw [View.read_apply]
  show V c main_v42 _ = V c main_v42 _
  congr 1
  funext a
  apply Fin.ext
  match a with
  | ⟨0, _⟩ => show win1_3.index t 0 * 1 + 1 * (x 0).val = (k 0).val; rw [e0, hk0]; omega
  | ⟨1, _⟩ => show win1_3.index t 1 * 128 + 1 * (x 1).val = (k 1).val; rw [e1, hk1]; omega

/-- What grid point t writes back is block t of the whole-array expression of the four arrays. -/
theorem flushed1_4_eq (c : Dev nD) (t : Fin cfg1.N) :
    (dat1 V c).flushed 4 t
      = ((cfg1.win 4).blk t).view.read (Elt F) (selfRef (V c main_v41) (V c main_v28) (V c main_v27) (V c main_v42)) := by
  show (cfg1.win 4).cut (grid1.coords t) ((dat1 V c).after 4 t) = _
  rw [after1_4]
  unfold out1_4
  rw [View.canon_unit_zero hz1]
  simp only [View.ld_unit_zero (S := S5000x128) hz1, View.ld_unit_zero (S := S5000x1) hz1, View.ld_unit_zero (S := S1x128) hz1]
  obtain ⟨-, -, -, -, -, -, -, -, e0, e1⟩ := idx_facts1 t
  have ht : t.val < 10 := lt_of_lt_of_eq t.isLt N_1
  funext j
  have hj0 : (j 0).val < 5000 := (j 0).isLt
  have hj1 : (j 1).val < 128 := (j 1).isLt

  have hj : (cfg1.win 4).xinj (grid1.coords t) j = ix2 (⟨(j 0).val, hj0⟩ : Fin 5000) (⟨(j 1).val, hj1⟩ : Fin 128) :=
    funext fun a => match a with | ⟨0, _⟩ => rfl | ⟨1, _⟩ => rfl
  have hk : ((cfg1.win 4).blk t).view.emb j = ix2 (⟨5000 * t.val + (j 0).val, by omega⟩ : Fin 50000) (⟨(j 1).val, hj1⟩ : Fin 128) := by
    funext a
    apply Fin.ext
    match a with
    | ⟨0, _⟩ => show win1_4.index t 0 * 5000 + 1 * (j 0).val = 5000 * t.val + (j 0).val; rw [e0]; omega
    | ⟨1, _⟩ => show win1_4.index t 1 * 128 + 1 * (j 1).val = (j 1).val; rw [e1]; omega
  show k1_pay1 (iblk1 V c 0 t) (iblk1 V c 1 t) (iblk1 V c 2 t) (iblk1 V c 3 t) ((cfg1.win 4).xinj (grid1.coords t) j)
    = selfRef (V c main_v41) (V c main_v28) (V c main_v27) (V c main_v42) (((cfg1.win 4).blk t).view.emb j)
  rw [hj, hk, pay1_apply, selfRef_apply]
  exact congr (congr (congr (congrArg selfElem (iblk1_0_apply V c t _ _ rfl rfl)) (iblk1_1_apply V c t _ _ rfl rfl))
    (iblk1_2_apply V c t _ _ rfl rfl)) (iblk1_3_apply V c t _ _ rfl rfl)

theorem mem_blk1_4 (t : Fin cfg1.N) (i : S50000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v43).slice (win1_4.rect t)).set ↔ _
  rw [View.set_slice_whole, Rect.mem_set_unit]
  exact Iff.rfl

theorem cover1_4_arr (i : S50000x128.Idx) : ∃ t : Fin cfg1.N, (cfg1.win 4).flush t = true ∧ i ∈ ((cfg1.win 4).blk t).view.set := by
  have hi0 : (i 0).val < 50000 := (i 0).isLt
  have hi1 : (i 1).val < 128 := (i 1).isLt
  let t : Fin cfg1.N := ⟨(i 0).val / 5000, by rw [show cfg1.N = 10 from N_1]; omega⟩
  obtain ⟨-, -, -, -, -, -, -, -, e0, e1⟩ := idx_facts1 t
  have e0' : win1_4.index t (0 : Fin 2) = (i 0).val / 5000 := e0
  refine ⟨t, flush1_4 t, ?_⟩
  rw [mem_blk1_4]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 128 ≤ (i 1).val ∧ (i 1).val < win1_4.index t (1 : Fin 2) * 128 + 128; omega

/-- After the region the output array is that whole-array expression. -/
theorem self1_ref (c : Dev nD) :
    (dat1 V c).arrAt 4 cfg1.N = selfRef (V c main_v41) (V c main_v28) (V c main_v27) (V c main_v42) :=
  (dat1 V c).arrAt_eq_of_cover 4 _ (fun t _ => flushed1_4_eq V c t) cover1_4_arr

theorem self1_arr (V : (c : Dev nD) → (b : Ref sig .tc) → Buf (Elt Ideal) ((c : Thread nD τ).loc b)) (c : Dev nD) :
    (dat1 (F := Ideal) V c).arrAt 4 cfg1.N
      = maximumf (F := Ideal) (addf (addf (V c main_v41) (mulf (V c main_v28)
              (broadcastInDim Cert.ReferenceIdeal.S50000x128 ![0, 1] Cert.ReferenceIdeal.Gen.bcast_S50000x1_S50000x128_0_1 (V c main_v27))))
            (broadcastInDim Cert.ReferenceIdeal.S50000x128 ![0, 1] Cert.ReferenceIdeal.Gen.bcast_S1x128_S50000x128_0_1 (V c main_v42)))
          (broadcastInDim Cert.ReferenceIdeal.S50000x128 ![] Cert.ReferenceIdeal.Gen.bcast_S_S50000x128
            (constant (F := Ideal) Cert.ReferenceIdeal.S_ .f32 0x00000000#32)) :=
  self1_ref V c

end Cert.KernelIdeal.Hand

end
-- ==== Proof.KI.SelfVal3.lean ====
import proofs.«412905_j38783554683010_1_alg».proof.Proof.KI.Self3
import proofs.«412905_j38783554683010_1_alg».proof.Proof.KI.SelfExpr
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable {F : FTy → Type} [FloatOps F]

/-- At (p, q) the stored value reads the two blocks there, the column at row p and the bias row at lane q. -/
theorem pay3_apply (x0 x1 : Vec F S5000x128 .f32) (x2 : Vec F S5000x1 .f32) (x3 : Vec F S1x128 .f32) (p : Fin 5000) (q : Fin 128) :
    k3_pay1 x0 x1 x2 x3 (ix2 p q) = selfElem (x0 (ix2 p q)) (x1 (ix2 p q)) (x2 (ix2 p (0 : Fin 1))) (x3 (ix2 (0 : Fin 1) q)) := by
  unfold k3_pay1 selfElem
  simp only [shapeCast_self]
  show FloatOps.maximumf (FloatOps.addf (FloatOps.addf (x0 (ix2 p q)) (FloatOps.mulf (x1 (ix2 p q))
      (broadcastTo S5000x128 x2 broadcasts_S5000x1_S5000x128 (ix2 p q)))) (broadcastTo S5000x128 x3 broadcasts_S1x128_S5000x128 (ix2 p q))) _ = _
  rw [broadcastTo_col x2, broadcastTo_1b_ab_apply x3]
  rfl

variable (V : (c : Dev nD) → (b : Ref sig .tc) → Buf (Elt F) ((c : Thread nD τ).loc b))

theorem hz3 : (![0, 0] : Fin 2 → Nat) = fun _ => 0 := funext fun a => by fin_cases a <;> rfl

theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

theorem iblk3_0_apply (c : Dev nD) (t : Fin cfg3.N) (x : S5000x128.Idx) (k : S50000x128.Idx)
    (hk0 : (k 0).val = 5000 * t.val + (x 0).val) (hk1 : (k 1).val = (x 1).val) :
    (iblk3 V c 0 t : Vec F S5000x128 .f32) x = (V c main_v57 : S50000x128.Idx → Elt F .f32) k := by
  obtain ⟨e0, e1, -⟩ := idx_facts3 t
  unfold iblk3
  rw [View.read_apply]
  show V c main_v57 _ = V c main_v57 _
  congr 1
  funext a
  apply Fin.ext
  match a with
  | ⟨0, _⟩ => show win3_0.index t 0 * 5000 + 1 * (x 0).val = (k 0).val; rw [e0, hk0]; omega
  | ⟨1, _⟩ => show win3_0.index t 1 * 128 + 1 * (x 1).val = (k 1).val; rw [e1, hk1]; omega

theorem iblk3_1_apply (c : Dev nD) (t : Fin cfg3.N) (x : S5000x128.Idx) (k : S50000x128.Idx)
    (hk0 : (k 0).val = 5000 * t.val + (x 0).val) (hk1 : (k 1).val = (x 1).val) :
    (iblk3 V c 1 t : Vec F S5000x128 .f32) x = (V c main_v44 : S50000x128.Idx → Elt F .f32) k := by
  obtain ⟨-, -, e0, e1, -⟩ := idx_facts3 t
  unfold iblk3
  rw [View.read_apply]
  show V c main_v44 _ = V c main_v44 _
  congr 1
  funext a
  apply Fin.ext
  match a with
  | ⟨0, _⟩ => show win3_1.index t 0 * 5000 + 1 * (x 0).val = (k 0).val; rw [e0, hk0]; omega
  | ⟨1, _⟩ => show win3_1.index t 1 * 128 + 1 * (x 1).val = (k 1).val; rw [e1, hk1]; omega

theorem iblk3_2_apply (c : Dev nD) (t : Fin cfg3.N) (x : S5000x1.Idx) (k : S50000x1.Idx)
    (hk0 : (k 0).val = 5000 * t.val + (x 0).val) (hk1 : (k 1).val = (x 1).val) :
    (iblk3 V c 2 t : Vec F S5000x1 .f32) x = (V c main_v27 : S50000x1.Idx → Elt F .f32) k := by
  obtain ⟨-, -, -, -, e0, e1, -⟩ := idx_facts3 t
  unfold iblk3
  rw [View.read_apply]
  show V c main_v27 _ = V c main_v27 _
  congr 1
  funext a
  apply Fin.ext
  match a with
  | ⟨0, _⟩ => show win3_2.index t 0 * 5000 + 1 * (x 0).val = (k 0).val; rw [e0, hk0]; omega
  | ⟨1, _⟩ => show win3_2.index t 1 * 1 + 1 * (x 1).val = (k 1).val; rw [e1, hk1]; omega

theorem iblk3_3_apply (c : Dev nD) (t : Fin cfg3.N) (x : S1x128.Idx) (k : S1x128.Idx)
    (hk0 : (k 0).val = (x 0).val) (hk1 : (k 1).val = (x 1).val) :
    (iblk3 V c 3 t : Vec F S1x128 .f32) x = (V c main_v58 : S1x128.Idx → Elt F .f32) k := by
  obtain ⟨-, -, -, -, -, -, e0, e1, -⟩ := idx_facts3 t
  unfold iblk3
  rw [View.read_apply]
  show V c main_v58 _ = V c main_v58 _
  congr 1
  funext a
  apply Fin.ext
  match a with
  | ⟨0, _⟩ => show win3_3.index t 0 * 1 + 1 * (x 0).val = (k 0).val; rw [e0, hk0]; omega
  | ⟨1, _⟩ => show win3_3.index t 1 * 128 + 1 * (x 1).val = (k 1).val; rw [e1, hk1]; omega

/-- What grid point t writes back is block t of the whole-array expression of the four arrays. -/
theorem flushed3_4_eq (c : Dev nD) (t : Fin cfg3.N) :
    (dat3 V c).flushed 4 t
      = ((cfg3.win 4).blk t).view.read (Elt F) (selfRef (V c main_v57) (V c main_v44) (V c main_v27) (V c main_v58)) := by
  show (cfg3.win 4).cut (grid3.coords t) ((dat3 V c).after 4 t) = _
  rw [after3_4]
  unfold out3_4
  rw [View.canon_unit_zero hz3]
  simp only [View.ld_unit_zero (S := S5000x128) hz3, View.ld_unit_zero (S := S5000x1) hz3, View.ld_unit_zero (S := S1x128) hz3]
  obtain ⟨-, -, -, -, -, -, -, -, e0, e1⟩ := idx_facts3 t
  have ht : t.val < 10 := lt_of_lt_of_eq t.isLt N_3
  funext j
  have hj0 : (j 0).val < 5000 := (j 0).isLt
  have hj1 : (j 1).val < 128 := (j 1).isLt

  have hj : (cfg3.win 4).xinj (grid3.coords t) j = ix2 (⟨(j 0).val, hj0⟩ : Fin 5000) (⟨(j 1).val, hj1⟩ : Fin 128) :=
    funext fun a => match a with | ⟨0, _⟩ => rfl | ⟨1, _⟩ => rfl
  have hk : ((cfg3.win 4).blk t).view.emb j = ix2 (⟨5000 * t.val + (j 0).val, by omega⟩ : Fin 50000) (⟨(j 1).val, hj1⟩ : Fin 128) := by
    funext a
    apply Fin.ext
    match a with
    | ⟨0, _⟩ => show win3_4.index t 0 * 5000 + 1 * (j 0).val = 5000 * t.val + (j 0).val; rw [e0]; omega
    | ⟨1, _⟩ => show win3_4.index t 1 * 128 + 1 * (j 1).val = (j 1).val; rw [e1]; omega
  show k3_pay1 (iblk3 V c 0 t) (iblk3 V c 1 t) (iblk3 V c 2 t) (iblk3 V c 3 t) ((cfg3.win 4).xinj (grid3.coords t) j)
    = selfRef (V c main_v57) (V c main_v44) (V c main_v27) (V c main_v58) (((cfg3.win 4).blk t).view.emb j)
  rw [hj, hk, pay3_apply, selfRef_apply]
  exact congr (congr (congr (congrArg selfElem (iblk3_0_apply V c t _ _ rfl rfl)) (iblk3_1_apply V c t _ _ rfl rfl))
    (iblk3_2_apply V c t _ _ rfl rfl)) (iblk3_3_apply V c t _ _ rfl rfl)

theorem mem_blk3_4 (t : Fin cfg3.N) (i : S50000x128.Idx) :
    i ∈ ((cfg3.win 4).blk t).view.set ↔ ∀ a : Fin 2, win3_4.index t a * S5000x128.size a ≤ (i a).val ∧ (i a).val < win3_4.index t a * S5000x128.size a + S5000x128.size a := by
  show i ∈ ((View.whole main_v59).slice (win3_4.rect t)).set ↔ _
  rw [View.set_slice_whole, Rect.mem_set_unit]
  exact Iff.rfl

theorem cover3_4_arr (i : S50000x128.Idx) : ∃ t : Fin cfg3.N, (cfg3.win 4).flush t = true ∧ i ∈ ((cfg3.win 4).blk t).view.set := by
  have hi0 : (i 0).val < 50000 := (i 0).isLt
  have hi1 : (i 1).val < 128 := (i 1).isLt
  let t : Fin cfg3.N := ⟨(i 0).val / 5000, by rw [show cfg3.N = 10 from N_3]; omega⟩
  obtain ⟨-, -, -, -, -, -, -, -, e0, e1⟩ := idx_facts3 t
  have e0' : win3_4.index t (0 : Fin 2) = (i 0).val / 5000 := e0
  refine ⟨t, flush3_4 t, ?_⟩
  rw [mem_blk3_4]
  intro a
  match a with
  | ⟨0, _⟩ => show win3_4.index t (0 : Fin 2) * 5000 ≤ (i 0).val ∧ (i 0).val < win3_4.index t (0 : Fin 2) * 5000 + 5000; omega
  | ⟨1, _⟩ => show win3_4.index t (1 : Fin 2) * 128 ≤ (i 1).val ∧ (i 1).val < win3_4.index t (1 : Fin 2) * 128 + 128; omega

/-- After the region the output array is that whole-array expression. -/
theorem self3_ref (c : Dev nD) :
    (dat3 V c).arrAt 4 cfg3.N = selfRef (V c main_v57) (V c main_v44) (V c main_v27) (V c main_v58) :=
  (dat3 V c).arrAt_eq_of_cover 4 _ (fun t _ => flushed3_4_eq V c t) cover3_4_arr

theorem self3_arr (V : (c : Dev nD) → (b : Ref sig .tc) → Buf (Elt Ideal) ((c : Thread nD τ).loc b)) (c : Dev nD) :
    (dat3 (F := Ideal) V c).arrAt 4 cfg3.N
      = maximumf (F := Ideal) (addf (addf (V c main_v57) (mulf (V c main_v44)
              (broadcastInDim Cert.ReferenceIdeal.S50000x128 ![0, 1] Cert.ReferenceIdeal.Gen.bcast_S50000x1_S50000x128_0_1 (V c main_v27))))
            (broadcastInDim Cert.ReferenceIdeal.S50000x128 ![0, 1] Cert.ReferenceIdeal.Gen.bcast_S1x128_S50000x128_0_1 (V c main_v58)))
          (broadcastInDim Cert.ReferenceIdeal.S50000x128 ![] Cert.ReferenceIdeal.Gen.bcast_S_S50000x128
            (constant (F := Ideal) Cert.ReferenceIdeal.S_ .f32 0x00000000#32)) :=
  self3_ref V c

end Cert.KernelIdeal.Hand

end
-- ==== Proof.KI.SelfVal5.lean ====
import proofs.«412905_j38783554683010_1_alg».proof.Proof.KI.Self5
import proofs.«412905_j38783554683010_1_alg».proof.Proof.KI.SelfExpr
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable {F : FTy → Type} [FloatOps F]

/-- At (p, q) the stored value reads the two blocks there, the column at row p and the bias row at lane q. -/
theorem pay5_apply (x0 x1 : Vec F S5000x128 .f32) (x2 : Vec F S5000x1 .f32) (x3 : Vec F S1x128 .f32) (p : Fin 5000) (q : Fin 128) :
    k5_pay1 x0 x1 x2 x3 (ix2 p q) = selfElem (x0 (ix2 p q)) (x1 (ix2 p q)) (x2 (ix2 p (0 : Fin 1))) (x3 (ix2 (0 : Fin 1) q)) := by
  unfold k5_pay1 selfElem
  simp only [shapeCast_self]
  show FloatOps.maximumf (FloatOps.addf (FloatOps.addf (x0 (ix2 p q)) (FloatOps.mulf (x1 (ix2 p q))
      (broadcastTo S5000x128 x2 broadcasts_S5000x1_S5000x128 (ix2 p q)))) (broadcastTo S5000x128 x3 broadcasts_S1x128_S5000x128 (ix2 p q))) _ = _
  rw [broadcastTo_col x2, broadcastTo_1b_ab_apply x3]
  rfl

variable (V : (c : Dev nD) → (b : Ref sig .tc) → Buf (Elt F) ((c : Thread nD τ).loc b))

theorem hz5 : (![0, 0] : Fin 2 → Nat) = fun _ => 0 := funext fun a => by fin_cases a <;> rfl

theorem idx_facts5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

theorem iblk5_0_apply (c : Dev nD) (t : Fin cfg5.N) (x : S5000x128.Idx) (k : S50000x128.Idx)
    (hk0 : (k 0).val = 5000 * t.val + (x 0).val) (hk1 : (k 1).val = (x 1).val) :
    (iblk5 V c 0 t : Vec F S5000x128 .f32) x = (V c main_v73 : S50000x128.Idx → Elt F .f32) k := by
  obtain ⟨e0, e1, -⟩ := idx_facts5 t
  unfold iblk5
  rw [View.read_apply]
  show V c main_v73 _ = V c main_v73 _
  congr 1
  funext a
  apply Fin.ext
  match a with
  | ⟨0, _⟩ => show win5_0.index t 0 * 5000 + 1 * (x 0).val = (k 0).val; rw [e0, hk0]; omega
  | ⟨1, _⟩ => show win5_0.index t 1 * 128 + 1 * (x 1).val = (k 1).val; rw [e1, hk1]; omega

theorem iblk5_1_apply (c : Dev nD) (t : Fin cfg5.N) (x : S5000x128.Idx) (k : S50000x128.Idx)
    (hk0 : (k 0).val = 5000 * t.val + (x 0).val) (hk1 : (k 1).val = (x 1).val) :
    (iblk5 V c 1 t : Vec F S5000x128 .f32) x = (V c main_v60 : S50000x128.Idx → Elt F .f32) k := by
  obtain ⟨-, -, e0, e1, -⟩ := idx_facts5 t
  unfold iblk5
  rw [View.read_apply]
  show V c main_v60 _ = V c main_v60 _
  congr 1
  funext a
  apply Fin.ext
  match a with
  | ⟨0, _⟩ => show win5_1.index t 0 * 5000 + 1 * (x 0).val = (k 0).val; rw [e0, hk0]; omega
  | ⟨1, _⟩ => show win5_1.index t 1 * 128 + 1 * (x 1).val = (k 1).val; rw [e1, hk1]; omega

theorem iblk5_2_apply (c : Dev nD) (t : Fin cfg5.N) (x : S5000x1.Idx) (k : S50000x1.Idx)
    (hk0 : (k 0).val = 5000 * t.val + (x 0).val) (hk1 : (k 1).val = (x 1).val) :
    (iblk5 V c 2 t : Vec F S5000x1 .f32) x = (V c main_v27 : S50000x1.Idx → Elt F .f32) k := by
  obtain ⟨-, -, -, -, e0, e1, -⟩ := idx_facts5 t
  unfold iblk5
  rw [View.read_apply]
  show V c main_v27 _ = V c main_v27 _
  congr 1
  funext a
  apply Fin.ext
  match a with
  | ⟨0, _⟩ => show win5_2.index t 0 * 5000 + 1 * (x 0).val = (k 0).val; rw [e0, hk0]; omega
  | ⟨1, _⟩ => show win5_2.index t 1 * 1 + 1 * (x 1).val = (k 1).val; rw [e1, hk1]; omega

theorem iblk5_3_apply (c : Dev nD) (t : Fin cfg5.N) (x : S1x128.Idx) (k : S1x128.Idx)
    (hk0 : (k 0).val = (x 0).val) (hk1 : (k 1).val = (x 1).val) :
    (iblk5 V c 3 t : Vec F S1x128 .f32) x = (V c main_v74 : S1x128.Idx → Elt F .f32) k := by
  obtain ⟨-, -, -, -, -, -, e0, e1, -⟩ := idx_facts5 t
  unfold iblk5
  rw [View.read_apply]
  show V c main_v74 _ = V c main_v74 _
  congr 1
  funext a
  apply Fin.ext
  match a with
  | ⟨0, _⟩ => show win5_3.index t 0 * 1 + 1 * (x 0).val = (k 0).val; rw [e0, hk0]; omega
  | ⟨1, _⟩ => show win5_3.index t 1 * 128 + 1 * (x 1).val = (k 1).val; rw [e1, hk1]; omega

/-- What grid point t writes back is block t of the whole-array expression of the four arrays. -/
theorem flushed5_4_eq (c : Dev nD) (t : Fin cfg5.N) :
    (dat5 V c).flushed 4 t
      = ((cfg5.win 4).blk t).view.read (Elt F) (selfRef (V c main_v73) (V c main_v60) (V c main_v27) (V c main_v74)) := by
  show (cfg5.win 4).cut (grid5.coords t) ((dat5 V c).after 4 t) = _
  rw [after5_4]
  unfold out5_4
  rw [View.canon_unit_zero hz5]
  simp only [View.ld_unit_zero (S := S5000x128) hz5, View.ld_unit_zero (S := S5000x1) hz5, View.ld_unit_zero (S := S1x128) hz5]
  obtain ⟨-, -, -, -, -, -, -, -, e0, e1⟩ := idx_facts5 t
  have ht : t.val < 10 := lt_of_lt_of_eq t.isLt N_5
  funext j
  have hj0 : (j 0).val < 5000 := (j 0).isLt
  have hj1 : (j 1).val < 128 := (j 1).isLt

  have hj : (cfg5.win 4).xinj (grid5.coords t) j = ix2 (⟨(j 0).val, hj0⟩ : Fin 5000) (⟨(j 1).val, hj1⟩ : Fin 128) :=
    funext fun a => match a with | ⟨0, _⟩ => rfl | ⟨1, _⟩ => rfl
  have hk : ((cfg5.win 4).blk t).view.emb j = ix2 (⟨5000 * t.val + (j 0).val, by omega⟩ : Fin 50000) (⟨(j 1).val, hj1⟩ : Fin 128) := by
    funext a
    apply Fin.ext
    match a with
    | ⟨0, _⟩ => show win5_4.index t 0 * 5000 + 1 * (j 0).val = 5000 * t.val + (j 0).val; rw [e0]; omega
    | ⟨1, _⟩ => show win5_4.index t 1 * 128 + 1 * (j 1).val = (j 1).val; rw [e1]; omega
  show k5_pay1 (iblk5 V c 0 t) (iblk5 V c 1 t) (iblk5 V c 2 t) (iblk5 V c 3 t) ((cfg5.win 4).xinj (grid5.coords t) j)
    = selfRef (V c main_v73) (V c main_v60) (V c main_v27) (V c main_v74) (((cfg5.win 4).blk t).view.emb j)
  rw [hj, hk, pay5_apply, selfRef_apply]
  exact congr (congr (congr (congrArg selfElem (iblk5_0_apply V c t _ _ rfl rfl)) (iblk5_1_apply V c t _ _ rfl rfl))
    (iblk5_2_apply V c t _ _ rfl rfl)) (iblk5_3_apply V c t _ _ rfl rfl)

theorem mem_blk5_4 (t : Fin cfg5.N) (i : S50000x128.Idx) :
    i ∈ ((cfg5.win 4).blk t).view.set ↔ ∀ a : Fin 2, win5_4.index t a * S5000x128.size a ≤ (i a).val ∧ (i a).val < win5_4.index t a * S5000x128.size a + S5000x128.size a := by
  show i ∈ ((View.whole main_v75).slice (win5_4.rect t)).set ↔ _
  rw [View.set_slice_whole, Rect.mem_set_unit]
  exact Iff.rfl

theorem cover5_4_arr (i : S50000x128.Idx) : ∃ t : Fin cfg5.N, (cfg5.win 4).flush t = true ∧ i ∈ ((cfg5.win 4).blk t).view.set := by
  have hi0 : (i 0).val < 50000 := (i 0).isLt
  have hi1 : (i 1).val < 128 := (i 1).isLt
  let t : Fin cfg5.N := ⟨(i 0).val / 5000, by rw [show cfg5.N = 10 from N_5]; omega⟩
  obtain ⟨-, -, -, -, -, -, -, -, e0, e1⟩ := idx_facts5 t
  have e0' : win5_4.index t (0 : Fin 2) = (i 0).val / 5000 := e0
  refine ⟨t, flush5_4 t, ?_⟩
  rw [mem_blk5_4]
  intro a
  match a with
  | ⟨0, _⟩ => show win5_4.index t (0 : Fin 2) * 5000 ≤ (i 0).val ∧ (i 0).val < win5_4.index t (0 : Fin 2) * 5000 + 5000; omega
  | ⟨1, _⟩ => show win5_4.index t (1 : Fin 2) * 128 ≤ (i 1).val ∧ (i 1).val < win5_4.index t (1 : Fin 2) * 128 + 128; omega

/-- After the region the output array is that whole-array expression. -/
theorem self5_ref (c : Dev nD) :
    (dat5 V c).arrAt 4 cfg5.N = selfRef (V c main_v73) (V c main_v60) (V c main_v27) (V c main_v74) :=
  (dat5 V c).arrAt_eq_of_cover 4 _ (fun t _ => flushed5_4_eq V c t) cover5_4_arr

theorem self5_arr (V : (c : Dev nD) → (b : Ref sig .tc) → Buf (Elt Ideal) ((c : Thread nD τ).loc b)) (c : Dev nD) :
    (dat5 (F := Ideal) V c).arrAt 4 cfg5.N
      = maximumf (F := Ideal) (addf (addf (V c main_v73) (mulf (V c main_v60)
              (broadcastInDim Cert.ReferenceIdeal.S50000x128 ![0, 1] Cert.ReferenceIdeal.Gen.bcast_S50000x1_S50000x128_0_1 (V c main_v27))))
            (broadcastInDim Cert.ReferenceIdeal.S50000x128 ![0, 1] Cert.ReferenceIdeal.Gen.bcast_S1x128_S50000x128_0_1 (V c main_v74)))
          (broadcastInDim Cert.ReferenceIdeal.S50000x128 ![] Cert.ReferenceIdeal.Gen.bcast_S_S50000x128
            (constant (F := Ideal) Cert.ReferenceIdeal.S_ .f32 0x00000000#32)) :=
  self5_ref V c

end Cert.KernelIdeal.Hand

end
-- ==== Proof.LibScatter.lean ====
import Idealize.ShloMosaic.PureOps.Ideal
import Idealize.ShloMosaic.PureOps.Ideal.Laws
import Idealize.ShloMosaic.Lib.ValueIdx

noncomputable section

namespace Cert.Rgcn.Lib

open Idealize.ShloMosaic Idealize.ShloMosaic.ValueIdx

section Rows

variable {N C E : Nat} (d : ScatterDims ⟨2, ![N, C]⟩ ⟨2, ![E, 1]⟩ ⟨2, ![E, C]⟩)
  (h1 : d.updateWindowDims = [1]) (h2 : d.insertedWindowDims = [0]) (h3 : d.scatterDimsToOperandDims = [0])
  (h4 : d.indexVectorDim = 1)

include h1 h2 h3 h4

theorem rows_start0 (idx : IVec ⟨2, ![E, 1]⟩ 32) (j : (⟨2, ![E, C]⟩ : Shape).Idx) :
    d.start j idx 0 = (idx (ix2 (j 0) (0 : Fin 1))).toInt := by
  obtain ⟨uw, iw, sd, iv, wf⟩ := d
  dsimp only at h1 h2 h3 h4
  subst h1 h2 h3 h4
  unfold ScatterDims.start
  rw [dif_pos (show (0 : Fin 2) ∈ ([0] : List (Fin 2)) by decide)]
  congr 2
  funext b
  match b with
  | ⟨0, _⟩ => rfl
  | ⟨1, _⟩ => rfl

theorem rows_start1 (idx : IVec ⟨2, ![E, 1]⟩ 32) (j : (⟨2, ![E, C]⟩ : Shape).Idx) :
    d.start j idx 1 = 0 := by
  obtain ⟨uw, iw, sd, iv, wf⟩ := d
  dsimp only at h1 h2 h3 h4
  subst h1 h2 h3 h4
  unfold ScatterDims.start
  rw [dif_neg (show (1 : Fin 2) ∉ ([0] : List (Fin 2)) by decide)]

theorem rows_window0 (j : (⟨2, ![E, C]⟩ : Shape).Idx) : d.window j 0 = 0 := by
  obtain ⟨uw, iw, sd, iv, wf⟩ := d
  dsimp only at h1 h2 h3 h4
  subst h1 h2 h3 h4
  unfold ScatterDims.window
  exact dif_neg (show (0 : Fin 2) ∉ List.filter (fun a => decide (a ∉ ([0] : List (Fin 2)))) (List.finRange 2) by decide)

theorem rows_window1 (j : (⟨2, ![E, C]⟩ : Shape).Idx) : d.window j 1 = (j 1).val := by
  obtain ⟨uw, iw, sd, iv, wf⟩ := d
  dsimp only at h1 h2 h3 h4
  subst h1 h2 h3 h4
  unfold ScatterDims.window
  exact (dif_pos (show (1 : Fin 2) ∈ List.filter (fun a => decide (a ∉ ([0] : List (Fin 2)))) (List.finRange 2) by decide)).trans rfl

theorem rows_resultIdx?_eq_some (idx : IVec ⟨2, ![E, 1]⟩ 32) (j : (⟨2, ![E, C]⟩ : Shape).Idx) (n : Fin N) (c : Fin C) :
    d.resultIdx? j idx = some (ix2 n c) ↔ (idx (ix2 (j 0) (0 : Fin 1))).toInt = (n.val : Int) ∧ j 1 = c := by
  have s0 := rows_start0 d h1 h2 h3 h4 idx j
  have s1 := rows_start1 d h1 h2 h3 h4 idx j
  have w0 := rows_window0 d h1 h2 h3 h4 j
  have w1 := rows_window1 d h1 h2 h3 h4 j
  have hn : n.val < N := n.isLt
  have hc : c.val < C := c.isLt
  have hj : (j 1).val < C := (j 1).isLt
  unfold ScatterDims.resultIdx?
  constructor
  · intro h
    split at h
    · rename_i hall
      have h' := Option.some.inj h
      have e0 : (d.start j idx 0 + (d.window j 0 : Int)).toNat = n.val := congrArg Fin.val (congrFun h' 0)
      have e1 : (d.start j idx 1 + (d.window j 1 : Int)).toNat = c.val := congrArg Fin.val (congrFun h' 1)
      have b0 : 0 ≤ d.start j idx 0 + (d.window j 0 : Int) := (hall 0).1
      rw [s0, w0] at e0 b0
      rw [s1, w1] at e1
      refine ⟨by omega, Fin.ext (by omega)⟩
    · exact absurd h (by simp)
  · rintro ⟨ht, hjc⟩
    have hjc' : (j 1).val = c.val := congrArg Fin.val hjc
    have hall : ∀ a, 0 ≤ d.start j idx a + (d.window j a : Int) ∧
        d.start j idx a + (d.window j a : Int) < ((⟨2, ![N, C]⟩ : Shape).size a : Int) := by
      intro a
      match a with
      | ⟨0, _⟩ =>
        show 0 ≤ d.start j idx 0 + (d.window j 0 : Int) ∧ d.start j idx 0 + (d.window j 0 : Int) < (N : Int)
        rw [s0, w0, ht]; omega
      | ⟨1, _⟩ =>
        show 0 ≤ d.start j idx 1 + (d.window j 1 : Int) ∧ d.start j idx 1 + (d.window j 1 : Int) < (C : Int)
        rw [s1, w1]; omega
    rw [dif_pos hall]
    congr 1
    funext a
    match a with
    | ⟨0, _⟩ =>
      apply Fin.ext
      show (d.start j idx 0 + (d.window j 0 : Int)).toNat = n.val
      rw [s0, w0, ht]; omega
    | ⟨1, _⟩ =>
      apply Fin.ext
      show (d.start j idx 1 + (d.window j 1 : Int)).toNat = c.val
      rw [s1, w1]; omega

end Rows

/-- An accumulating scatter of rows leaves at (n, c) the operand's entry plus the updates' column c summed over the rows whose start word is n. -/
theorem scatterAdd_rows_apply {N C E : Nat}
    (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1)
    (x : (⟨2, ![N, C]⟩ : Shape).Idx → EReal) (idx : IVec ⟨2, ![E, 1]⟩ 32)
    (upd : (⟨2, ![E, C]⟩ : Shape).Idx → EReal) (n : Fin N) (c : Fin C) :
    Ideal.hostScatterAdd d x idx upd (ix2 n c)
      = x (ix2 n c) + ∑ e ∈ Finset.univ.filter (fun e : Fin E => (idx (ix2 e (0 : Fin 1))).toInt = (n.val : Int)),
          upd (ix2 e c) := by
  unfold Ideal.hostScatterAdd
  congr 1
  refine Finset.sum_nbij' (fun j => j 0) (fun e => ix2 e c) ?_ ?_ ?_ ?_ ?_
  · intro j hj
    have hj' := (Finset.mem_filter.1 hj).2
    exact Finset.mem_filter.2 ⟨Finset.mem_univ _, ((rows_resultIdx?_eq_some d h1 h2 h3 h4 idx j n c).1 hj').1⟩
  · intro e he
    have he' := (Finset.mem_filter.1 he).2
    exact Finset.mem_filter.2
      ⟨Finset.mem_univ _, (rows_resultIdx?_eq_some d h1 h2 h3 h4 idx (ix2 e c) n c).2 ⟨he', rfl⟩⟩
  · intro j hj
    rw [Finset.mem_filter] at hj
    have hjc := ((rows_resultIdx?_eq_some d h1 h2 h3 h4 idx j n c).1 hj.2).2
    rw [← hjc]; exact (eq_ix2 j).symm
  · intro e _
    rfl
  · intro j hj
    rw [Finset.mem_filter] at hj
    have hjc := ((rows_resultIdx?_eq_some d h1 h2 h3 h4 idx j n c).1 hj.2).2
    rw [← hjc]; exact congrArg upd (eq_ix2 j)

end Cert.Rgcn.Lib

end
-- ==== Proof.KI.ReadSpec6.lean ====
import proofs.«412905_j38783554683010_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StackMember
import Mathlib.Algebra.BigOperators.Fin
import Mathlib.Algebra.BigOperators.Ring.Finset
import Mathlib.Logic.Equiv.Fin.Basic

set_option maxRecDepth 16384

noncomputable section

namespace Cert.KernelIdeal.Hand

open Cert.KernelIdeal Cert.KernelIdeal.Gen
open Idealize.ShloMosaic Idealize.ShloMosaic.TcCoe Idealize.ShloMosaic.ValueIdx
open scoped BigOperators

theorem ind6_word (w v : BitVec 32) :
    ((((BitVec.setWidth 32 (IntOp.cmpi .eq w v)).toInt : ℝ)) : EReal) = if w = v then 1 else 0 := by
  by_cases h : w = v
  · rw [if_pos h]
    have e : IntOp.cmpi .eq w v = 1#1 := by
      subst h
      show BitVec.ofBool (w == w) = 1#1
      rw [beq_self_eq_true]; rfl
    rw [e, show (BitVec.setWidth 32 (1#1)).toInt = 1 from by decide]
    simp
  · rw [if_neg h]
    have e : IntOp.cmpi .eq w v = 0#1 := by
      show BitVec.ofBool (w == v) = 0#1
      rw [beq_eq_false_iff_ne.mpr h]; rfl
    rw [e, show (BitVec.setWidth 32 (0#1)).toInt = 0 from by decide]
    simp

theorem bcast_ids6_apply {α : Type} (v : S5000x1.Idx → α) (j : Fin 5000) (g : Fin 512) :
    broadcastTo S5000x512 v broadcasts_S5000x1_S5000x512 (ix2 j g) = v (ix2 j (0 : Fin 1)) := by
  refine broadcastTo_apply v broadcasts_S5000x1_S5000x512 (ix2 j g) (ix2 j (0 : Fin 1)) fun ax => ?_
  match ax with
  | ⟨0, _⟩ => show j.val = if (5000 : ℕ) = 1 then 0 else j.val; rw [if_neg (by decide)]
  | ⟨1, _⟩ => show (0 : ℕ) = if (1 : ℕ) = 1 then 0 else g.val; rw [if_pos rfl]

/-- The one-hot of the graph ids at (j, g) is 1 where row j's id is g and 0 elsewhere. -/
theorem onehot6_apply (b : Vec Ideal S5000x1 .i32) (j : Fin 5000) (g : Fin 512) :
    (truncf .bf16 (sitofp (F := Ideal) .f32 (extui 32 (cmpi .eq
        (broadcastTo S5000x512 (shapeCast S5000x1 b shapeCasts_S5000x1_S5000x1) broadcasts_S5000x1_S5000x512)
        (broadcastTo S5000x512 (iota .tc S1x512 32 [1] iota_S1x512_d1_w32) broadcasts_S1x512_S5000x512)) natLt_1_32)) bitsLt_bf16_f32
      : FVec Ideal S5000x512 .bf16) (ix2 j g)
      = if b (ix2 j (0 : Fin 1)) = BitVec.ofNat 32 g.val then (1 : EReal) else 0 := by
  show ((((BitVec.setWidth 32 (IntOp.cmpi .eq
      (broadcastTo S5000x512 (shapeCast S5000x1 b shapeCasts_S5000x1_S5000x1) broadcasts_S5000x1_S5000x512 (ix2 j g))
      (broadcastTo S5000x512 (iota .tc S1x512 32 [1] iota_S1x512_d1_w32) broadcasts_S1x512_S5000x512 (ix2 j g)))).toInt : ℝ)) : EReal) = _
  rw [bcast_ids6_apply, shapeCast_self, broadcastTo_1b_ab_apply, iota_single_apply]
  exact ind6_word _ _

/-- One grid point adds, at (g, d), the sum over its 5000 rows of the indicator of id g times the row's feature d. -/
theorem pay6_apply (b : Vec Ideal S5000x1 .i32) (h : Vec Ideal S5000x128 .f32) (a : Vec Ideal S512x128 .f32)
    (g : Fin 512) (d : Fin 128) :
    k6_pay2 (F := Ideal) b h a (ix2 g d)
      = a (ix2 g d) + ∑ j : Fin 5000, (if b (ix2 j (0 : Fin 1)) = BitVec.ofNat 32 g.val then (1 : EReal) else 0) * h (ix2 j d) := by
  unfold k6_pay2
  refine (congrFun (shapeCast_self _ shapeCasts_S512x128_S512x128) (ix2 g d)).trans ?_
  refine congrArg (a (ix2 g d) + ·) ?_
  refine (congrFun (matmul_zero_eq_dotGeneral dot_S512x5000_S5000x128_S512x128_1_0_0_1_n_n none _ _) (ix2 g d)).trans ?_
  refine (StackMember.dotGeneral_plain_apply none _ _ g d).trans (Finset.sum_congr rfl fun k _ => congrArg₂ (· * ·) ?_ ?_)
  · refine (transpose_ix2_apply _ transposes_S5000x512_p1_0_S512x5000 g k).trans ?_
    exact onehot6_apply b k g
  · exact congrFun (shapeCast_self h shapeCasts_S5000x128_S5000x128) (ix2 k d)

theorem pay6_zero_apply (i : S512x128.Idx) : k6_pay1 (F := Ideal) i = 0 := by
  unfold k6_pay1
  refine (congrFun (shapeCast_self _ shapeCasts_S512x128_S512x128) i).trans ?_
  exact Ideal.ofBits_zero_f32

abbrev row6 (t : Fin 10) (j : Fin 5000) : Fin 50000 := ⟨5000 * t.val + j.val, by have := t.isLt; have := j.isLt; omega⟩

/-- Ten blocks of 5000 rows are the 50000 rows. -/
theorem sum_blocks6 (f : Fin 50000 → EReal) : ∑ t : Fin 10, ∑ j : Fin 5000, f (row6 t j) = ∑ r : Fin 50000, f r := by
  refine (Fintype.sum_prod_type' (fun (t : Fin 10) (j : Fin 5000) => f (row6 t j))).symm.trans ?_
  exact Fintype.sum_equiv (finProdFinEquiv : Fin 10 × Fin 5000 ≃ Fin 50000) _ _
    (fun x => congrArg f (Fin.ext (by show 5000 * x.1.val + x.2.val = x.2.val + 5000 * x.1.val; omega)))

theorem sum_le_zero6 (G : Fin 10 → EReal) : ∑ t : Fin 10, (if t.val ≤ 0 then G t else 0) = G 0 := by
  have e : ∀ t : Fin 10, (if t.val ≤ 0 then G t else 0) = if t = 0 then G t else 0 := fun t => by
    by_cases h : t = 0
    · rw [if_pos h, if_pos (by rw [h]; exact Nat.le_refl _)]
    · rw [if_neg h, if_neg (fun hh => h (Fin.ext (by have : (0 : Fin 10).val = 0 := rfl; omega)))]
  rw [Finset.sum_congr rfl (fun t _ => e t), Finset.sum_ite_eq' Finset.univ (0 : Fin 10) G, if_pos (Finset.mem_univ _)]

theorem sum_le_succ6 (G : Fin 10 → EReal) (n : ℕ) (hn : n + 1 < 10) :
    ∑ t : Fin 10, (if t.val ≤ n + 1 then G t else 0) = (∑ t : Fin 10, if t.val ≤ n then G t else 0) + G ⟨n + 1, hn⟩ := by
  have e : ∀ t : Fin 10, (if t.val ≤ n + 1 then G t else 0)
      = (if t.val ≤ n then G t else 0) + (if t = ⟨n + 1, hn⟩ then G t else 0) := fun t => by
    by_cases h1 : t.val ≤ n
    · rw [if_pos h1, if_pos (by omega), if_neg (fun hh => by rw [hh] at h1; exact absurd h1 (by show ¬ n + 1 ≤ n; omega)), add_zero]
    · by_cases h2 : t = ⟨n + 1, hn⟩
      · rw [if_neg h1, if_pos h2, if_pos (by rw [h2]), zero_add]
      · rw [if_neg h1, if_neg h2, if_neg (fun hh => h2 (Fin.ext (by show t.val = n + 1; omega))), add_zero]
  rw [Finset.sum_congr rfl (fun t _ => e t), Finset.sum_add_distrib, Finset.sum_ite_eq' Finset.univ (⟨n + 1, hn⟩ : Fin 10) G,
    if_pos (Finset.mem_univ _)]

theorem sum_le_last6 (G : Fin 10 → EReal) : ∑ t : Fin 10, (if t.val ≤ 9 then G t else 0) = ∑ t : Fin 10, G t :=
  Finset.sum_congr rfl fun t _ => if_pos (by have := t.isLt; omega)

theorem sum_ind_eq_filter6 {ι : Type} [Fintype ι] (p : ι → Prop) [DecidablePred p] (f : ι → EReal) :
    ∑ r, (if p r then (1 : EReal) else 0) * f r = ∑ r ∈ Finset.univ.filter p, f r := by
  rw [Finset.sum_filter]
  refine Finset.sum_congr rfl fun r _ => ?_
  by_cases h : p r
  · rw [if_pos h, if_pos h, one_mul]
  · rw [if_neg h, if_neg h, zero_mul]

theorem word_eq_iff6 (w : BitVec 32) (g : ℕ) (hg : g < 512) : w = BitVec.ofNat 32 g ↔ w.toInt = (g : Int) := by
  constructor
  · rintro rfl
    rw [BitVec.toInt_eq_toNat_cond, BitVec.toNat_ofNat, Nat.mod_eq_of_lt (by omega)]
    split <;> omega
  · intro h
    apply BitVec.eq_of_toNat_eq
    rw [BitVec.toNat_ofNat, Nat.mod_eq_of_lt (by omega)]
    rw [BitVec.toInt_eq_toNat_cond] at h
    have := w.isLt
    split at h <;> omega

end Cert.KernelIdeal.Hand

end
-- ==== Proof.KI.ReadVal6.lean ====
import proofs.«412905_j38783554683010_1_alg».proof.Proof.Gen.ReferenceIdeal.Read
import proofs.«412905_j38783554683010_1_alg».proof.Proof.KI.Reg6
import proofs.«412905_j38783554683010_1_alg».proof.Proof.LibScatter
import proofs.«412905_j38783554683010_1_alg».proof.Proof.KI.ReadSpec6
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.Tactic
open Idealize.SL.Sem
open Idealize.ShloMosaic.Pipeline (Dat Cfg Window)
open scoped BigOperators

variable {F : FTy → Type} [FloatOps F]

theorem hz6 : (![0, 0] : Fin 2 → Nat) = fun _ => 0 := funext fun a => by fin_cases a <;> rfl

section
variable (c : Dev nD) (i : grid6.Coords) (arg1 : Memref sig .tc .vmem S5000x1 .i32) (harg1 : arg1.IsWhole) (arg2 : Memref sig .tc .vmem S5000x128 .f32) (harg2 : arg2.IsWhole) (arg3 : Memref sig .tc .vmem S512x128 .f32) (harg3 : arg3.IsWhole) (arg4 : Memref sig .tc .vmem S512x128 .f32) (harg4 : arg4.IsWhole)

section
variable (hc0 : cond6_0 i) (hc1 : ¬cond6_1 i) (x0 : Vec F S5000x1 .i32) (x1 : Vec F S5000x128 .f32)

theorem sout6_A_eq :
    sout6_A_0 c i arg1 harg1 arg2 harg2 arg3 harg3 arg4 harg4 hc0 hc1 x0 x1 = k6_pay2 x0 x1 (k6_pay1 (F := F)) := by
  unfold sout6_A_0
  rw [View.read_writes_eq_canon _ _ _ (scover6_A_0 c i arg1 harg1 arg2 harg2 arg3 harg3 arg4 harg4 hc0 hc1 x0 x1)]
  unfold kernelRun6_A
  dsimp only
  sl_unfold_words
  rw [View.canon_cons_unit_zero (S := S512x128) hz6]
  simp only [View.readAt_eq_ld, harg1.read_unread, harg2.read_unread, View.readCov_unit_zero (S := S512x128) _ hz6,
    View.ld_unit_zero (S := S5000x1) hz6, View.ld_unit_zero (S := S5000x128) hz6, View.ld_unit_zero (S := S512x128) hz6]

end

section
variable (hc0 : ¬cond6_0 i) (hc1 : ¬cond6_1 i) (x0 : Vec F S5000x1 .i32) (x1 : Vec F S5000x128 .f32) (xs0 : Vec F S512x128 .f32)

theorem sout6_B_eq :
    sout6_B_0 c i arg1 harg1 arg2 harg2 arg3 harg3 arg4 harg4 hc0 hc1 x0 x1 xs0 = k6_pay2 x0 x1 xs0 := by
  unfold sout6_B_0
  rw [View.read_writes_eq_canon _ _ _ (scover6_B_0 c i arg1 harg1 arg2 harg2 arg3 harg3 arg4 harg4 hc0 hc1 x0 x1 xs0)]
  unfold kernelRun6_B
  dsimp only
  sl_unfold_words
  rw [View.canon_unit_zero hz6]
  simp only [View.readAt_eq_ld, harg1.read_unread, harg2.read_unread, harg4.read_unread,
    View.ld_unit_zero (S := S5000x1) hz6, View.ld_unit_zero (S := S5000x128) hz6, View.ld_unit_zero (S := S512x128) hz6]

end

section
variable (hc0 : ¬cond6_0 i) (hc1 : cond6_1 i) (x0 : Vec F S5000x1 .i32) (x1 : Vec F S5000x128 .f32) (xs0 : Vec F S512x128 .f32)

theorem sout6_C_eq :
    sout6_C_0 c i arg1 harg1 arg2 harg2 arg3 harg3 arg4 harg4 hc0 hc1 x0 x1 xs0 = k6_pay2 x0 x1 xs0 := by
  unfold sout6_C_0
  rw [View.read_writes_eq_canon _ _ _ (scover6_C_0 c i arg1 harg1 arg2 harg2 arg3 harg3 arg4 harg4 hc0 hc1 x0 x1 xs0)]
  unfold kernelRun6_C
  dsimp only
  sl_unfold_words
  rw [View.canon_unit_zero hz6]
  simp only [View.readAt_eq_ld, harg1.read_unread, harg2.read_unread, harg4.read_unread,
    View.ld_unit_zero (S := S5000x1) hz6, View.ld_unit_zero (S := S5000x128) hz6, View.ld_unit_zero (S := S512x128) hz6]

theorem out6_C_eq :
    out6_C_2 c i arg1 harg1 arg2 harg2 arg3 harg3 arg4 harg4 hc0 hc1 x0 x1 xs0 = k6_pay2 x0 x1 xs0 := by
  unfold out6_C_2
  rw [View.read_writes_eq_canon _ _ _ (cover6_C_2 c i arg1 harg1 arg2 harg2 arg3 harg3 arg4 harg4 hc0 hc1 x0 x1 xs0)]
  unfold kernelRun6_C
  dsimp only
  sl_unfold_words
  rw [View.canon_unit_zero hz6]
  simp only [View.readAt_eq_ld, harg1.read_unread, harg2.read_unread, harg4.read_unread, View.readCov_unit_zero (S := S512x128) _ hz6,
    View.ld_unit_zero (S := S5000x1) hz6, View.ld_unit_zero (S := S5000x128) hz6, View.ld_unit_zero (S := S512x128) hz6]

end

end

section AtIdeal

variable (V : (c : Dev nD) → (b : Ref sig .tc) → Buf (Elt Ideal) ((c : Thread nD τ).loc b))

abbrev barr6 (c : Dev nD) : Vec Ideal S50000x1 .i32 := V c main_v76

abbrev harr6 (c : Dev nD) : Vec Ideal S50000x128 .f32 := V c main_v75

abbrev bblk6 (c : Dev nD) (t : Fin cfg6.N) : Vec Ideal S5000x1 .i32 := iblk6 V c 0 t

abbrev hblk6 (c : Dev nD) (t : Fin cfg6.N) : Vec Ideal S5000x128 .f32 := iblk6 V c 1 t

theorem idx_facts6 : ∀ t : Fin cfg6.N, win6_0.index t (0 : Fin 2) = t.val ∧ win6_0.index t (1 : Fin 2) = 0
    ∧ win6_1.index t (0 : Fin 2) = t.val ∧ win6_1.index t (1 : Fin 2) = 0 :=
  (by decide +kernel : ∀ t : Fin grid6.N, _)

theorem bblk6_apply (c : Dev nD) (t : Fin cfg6.N) (j : Fin 5000) :
    bblk6 V c t (ix2 j (0 : Fin 1)) = barr6 V c (ix2 (row6 (t.cast N_6) j) (0 : Fin 1)) := by
  obtain ⟨e0, e1, -, -⟩ := idx_facts6 t
  show V c main_v76 (((cfg6.win 0).blk t).view.emb (ix2 j (0 : Fin 1))) = V c main_v76 (ix2 (row6 (t.cast N_6) j) (0 : Fin 1))
  refine congrArg (V c main_v76) (funext fun a => Fin.ext ?_)
  match a with
  | ⟨0, _⟩ => show win6_0.index t (0 : Fin 2) * 5000 + 1 * j.val = 5000 * t.val + j.val; omega
  | ⟨1, _⟩ => show win6_0.index t (1 : Fin 2) * 1 + 1 * 0 = 0; omega

theorem hblk6_apply (c : Dev nD) (t : Fin cfg6.N) (j : Fin 5000) (d : Fin 128) :
    hblk6 V c t (ix2 j d) = harr6 V c (ix2 (row6 (t.cast N_6) j) d) := by
  obtain ⟨-, -, e0, e1⟩ := idx_facts6 t
  show V c main_v75 (((cfg6.win 1).blk t).view.emb (ix2 j d)) = V c main_v75 (ix2 (row6 (t.cast N_6) j) d)
  refine congrArg (V c main_v75) (funext fun a => Fin.ext ?_)
  match a with
  | ⟨0, _⟩ => show win6_1.index t (0 : Fin 2) * 5000 + 1 * j.val = 5000 * t.val + j.val; omega
  | ⟨1, _⟩ => show win6_1.index t (1 : Fin 2) * 128 + 1 * d.val = d.val; omega

def blk6sum (B : Vec Ideal S50000x1 .i32) (H : Vec Ideal S50000x128 .f32) (g : Fin 512) (d : Fin 128) (t : Fin 10) : EReal :=
  ∑ j : Fin 5000, (if B (ix2 (row6 t j) (0 : Fin 1)) = BitVec.ofNat 32 g.val then (1 : EReal) else 0) * H (ix2 (row6 t j) d)

theorem pay6_block (B : Vec Ideal S50000x1 .i32) (H : Vec Ideal S50000x128 .f32) (t : Fin 10)
    (b : Vec Ideal S5000x1 .i32) (h : Vec Ideal S5000x128 .f32) (a : Vec Ideal S512x128 .f32)
    (hb : ∀ j : Fin 5000, b (ix2 j (0 : Fin 1)) = B (ix2 (row6 t j) (0 : Fin 1)))
    (hh : ∀ (j : Fin 5000) (d : Fin 128), h (ix2 j d) = H (ix2 (row6 t j) d)) (g : Fin 512) (d : Fin 128) :
    k6_pay2 (F := Ideal) b h a (ix2 g d) = a (ix2 g d) + blk6sum B H g d t := by
  rw [pay6_apply]
  refine congrArg (a (ix2 g d) + ·) (Finset.sum_congr rfl fun j _ => ?_)
  rw [hb j, hh j d]

/-- After point n the accumulator holds, at (g, d), the indicator-weighted sum over the rows of points 0 to n. -/
theorem acc6_eq (c : Dev nD) : ∀ (n : ℕ) (hn : n < cfg6.N) (g : Fin 512) (d : Fin 128),
    (outsAt6 V c n hn).2 (ix2 g d) = ∑ t : Fin 10, if t.val ≤ n then blk6sum (barr6 V c) (harr6 V c) g d t else 0
  | 0, hn, g, d => by
    have h0 : (⟨0, hn⟩ : Fin cfg6.N).val % 10 = 0 := Nat.zero_mod 10
    have h1 : ¬(⟨0, hn⟩ : Fin cfg6.N).val % 10 = 9 := by show ¬(0 % 10 = 9); omega
    rw [outsAt6_A V c (⟨0, hn⟩ : Fin cfg6.N) h0 h1]
    dsimp only
    refine (congrFun (sout6_A_eq (F := Ideal) c (grid6.coords (⟨0, hn⟩ : Fin cfg6.N)) (ms6_0 (⟨0, hn⟩ : Fin cfg6.N)) (hs6_0 (⟨0, hn⟩ : Fin cfg6.N)) (ms6_1 (⟨0, hn⟩ : Fin cfg6.N)) (hs6_1 (⟨0, hn⟩ : Fin cfg6.N)) (ms6_2 (⟨0, hn⟩ : Fin cfg6.N)) (hs6_2 (⟨0, hn⟩ : Fin cfg6.N)) scM6_0 (Memref.isWhole_whole _) ((hcond6_0 (⟨0, hn⟩ : Fin cfg6.N)).mpr h0) (fun h => h1 ((hcond6_1 (⟨0, hn⟩ : Fin cfg6.N)).mp h)) (iblk6 V c 0 (⟨0, hn⟩ : Fin cfg6.N)) (iblk6 V c 1 (⟨0, hn⟩ : Fin cfg6.N))) (ix2 g d)).trans ?_
    refine (pay6_block (barr6 V c) (harr6 V c) ((⟨0, hn⟩ : Fin cfg6.N).cast N_6) (bblk6 V c (⟨0, hn⟩ : Fin cfg6.N)) (hblk6 V c (⟨0, hn⟩ : Fin cfg6.N)) (k6_pay1 (F := Ideal))
      (fun j => bblk6_apply V c (⟨0, hn⟩ : Fin cfg6.N) j) (fun j d => hblk6_apply V c (⟨0, hn⟩ : Fin cfg6.N) j d) g d).trans ?_
    rw [pay6_zero_apply, zero_add, sum_le_zero6]
    rfl
  | n + 1, hn, g, d => by
    have hN : n + 1 < 10 := lt_of_lt_of_eq hn (show cfg6.N = 10 from N_6)
    have h0 : ¬(⟨n + 1, hn⟩ : Fin cfg6.N).val % 10 = 0 := by show ¬((n + 1) % 10 = 0); omega
    have ih := acc6_eq c n (Nat.lt_of_succ_lt hn) g d
    by_cases h1 : (⟨n + 1, hn⟩ : Fin cfg6.N).val % 10 = 9
    · rw [outsAt6_C V c (⟨n + 1, hn⟩ : Fin cfg6.N) h0 h1]
      dsimp only
      refine (congrFun (sout6_C_eq (F := Ideal) c (grid6.coords (⟨n + 1, hn⟩ : Fin cfg6.N)) (ms6_0 (⟨n + 1, hn⟩ : Fin cfg6.N)) (hs6_0 (⟨n + 1, hn⟩ : Fin cfg6.N)) (ms6_1 (⟨n + 1, hn⟩ : Fin cfg6.N)) (hs6_1 (⟨n + 1, hn⟩ : Fin cfg6.N)) (ms6_2 (⟨n + 1, hn⟩ : Fin cfg6.N)) (hs6_2 (⟨n + 1, hn⟩ : Fin cfg6.N)) scM6_0 (Memref.isWhole_whole _) (fun h => h0 ((hcond6_0 (⟨n + 1, hn⟩ : Fin cfg6.N)).mp h)) ((hcond6_1 (⟨n + 1, hn⟩ : Fin cfg6.N)).mpr h1) (iblk6 V c 0 (⟨n + 1, hn⟩ : Fin cfg6.N)) (iblk6 V c 1 (⟨n + 1, hn⟩ : Fin cfg6.N)) (outsAt6 V c n (Nat.lt_of_succ_lt hn)).2) (ix2 g d)).trans ?_
      refine (pay6_block (barr6 V c) (harr6 V c) ((⟨n + 1, hn⟩ : Fin cfg6.N).cast N_6) (bblk6 V c (⟨n + 1, hn⟩ : Fin cfg6.N)) (hblk6 V c (⟨n + 1, hn⟩ : Fin cfg6.N)) (outsAt6 V c n (Nat.lt_of_succ_lt hn)).2
        (fun j => bblk6_apply V c (⟨n + 1, hn⟩ : Fin cfg6.N) j) (fun j d => hblk6_apply V c (⟨n + 1, hn⟩ : Fin cfg6.N) j d) g d).trans ?_
      rw [ih]
      exact (sum_le_succ6 _ n hN).symm
    · rw [outsAt6_B V c (⟨n + 1, hn⟩ : Fin cfg6.N) h0 h1]
      dsimp only
      refine (congrFun (sout6_B_eq (F := Ideal) c (grid6.coords (⟨n + 1, hn⟩ : Fin cfg6.N)) (ms6_0 (⟨n + 1, hn⟩ : Fin cfg6.N)) (hs6_0 (⟨n + 1, hn⟩ : Fin cfg6.N)) (ms6_1 (⟨n + 1, hn⟩ : Fin cfg6.N)) (hs6_1 (⟨n + 1, hn⟩ : Fin cfg6.N)) (ms6_2 (⟨n + 1, hn⟩ : Fin cfg6.N)) (hs6_2 (⟨n + 1, hn⟩ : Fin cfg6.N)) scM6_0 (Memref.isWhole_whole _) (fun h => h0 ((hcond6_0 (⟨n + 1, hn⟩ : Fin cfg6.N)).mp h)) (fun h => h1 ((hcond6_1 (⟨n + 1, hn⟩ : Fin cfg6.N)).mp h)) (iblk6 V c 0 (⟨n + 1, hn⟩ : Fin cfg6.N)) (iblk6 V c 1 (⟨n + 1, hn⟩ : Fin cfg6.N)) (outsAt6 V c n (Nat.lt_of_succ_lt hn)).2) (ix2 g d)).trans ?_
      refine (pay6_block (barr6 V c) (harr6 V c) ((⟨n + 1, hn⟩ : Fin cfg6.N).cast N_6) (bblk6 V c (⟨n + 1, hn⟩ : Fin cfg6.N)) (hblk6 V c (⟨n + 1, hn⟩ : Fin cfg6.N)) (outsAt6 V c n (Nat.lt_of_succ_lt hn)).2
        (fun j => bblk6_apply V c (⟨n + 1, hn⟩ : Fin cfg6.N) j) (fun j d => hblk6_apply V c (⟨n + 1, hn⟩ : Fin cfg6.N) j d) g d).trans ?_
      rw [ih]
      exact (sum_le_succ6 _ n hN).symm

theorem out6_last (c : Dev nD) (hn : 9 < cfg6.N) : (outsAt6 V c 9 hn).1 = (outsAt6 V c 9 hn).2 := by
  have h0 : ¬(⟨9, hn⟩ : Fin cfg6.N).val % 10 = 0 := by show ¬(9 % 10 = 0); omega
  have h1 : (⟨9, hn⟩ : Fin cfg6.N).val % 10 = 9 := by show 9 % 10 = 9; omega
  rw [outsAt6_C V c (⟨9, hn⟩ : Fin cfg6.N) h0 h1]
  dsimp only
  exact (out6_C_eq (F := Ideal) c (grid6.coords (⟨9, hn⟩ : Fin cfg6.N)) (ms6_0 (⟨9, hn⟩ : Fin cfg6.N)) (hs6_0 (⟨9, hn⟩ : Fin cfg6.N)) (ms6_1 (⟨9, hn⟩ : Fin cfg6.N)) (hs6_1 (⟨9, hn⟩ : Fin cfg6.N)) (ms6_2 (⟨9, hn⟩ : Fin cfg6.N)) (hs6_2 (⟨9, hn⟩ : Fin cfg6.N)) scM6_0 (Memref.isWhole_whole _) (fun h => h0 ((hcond6_0 (⟨9, hn⟩ : Fin cfg6.N)).mp h)) ((hcond6_1 (⟨9, hn⟩ : Fin cfg6.N)).mpr h1) (iblk6 V c 0 (⟨9, hn⟩ : Fin cfg6.N)) (iblk6 V c 1 (⟨9, hn⟩ : Fin cfg6.N)) (outsAt6 V c ((⟨9, hn⟩ : Fin cfg6.N).val - 1) (Nat.lt_of_le_of_lt (Nat.sub_le _ _) (⟨9, hn⟩ : Fin cfg6.N).isLt)).2).trans
    (sout6_C_eq (F := Ideal) c (grid6.coords (⟨9, hn⟩ : Fin cfg6.N)) (ms6_0 (⟨9, hn⟩ : Fin cfg6.N)) (hs6_0 (⟨9, hn⟩ : Fin cfg6.N)) (ms6_1 (⟨9, hn⟩ : Fin cfg6.N)) (hs6_1 (⟨9, hn⟩ : Fin cfg6.N)) (ms6_2 (⟨9, hn⟩ : Fin cfg6.N)) (hs6_2 (⟨9, hn⟩ : Fin cfg6.N)) scM6_0 (Memref.isWhole_whole _) (fun h => h0 ((hcond6_0 (⟨9, hn⟩ : Fin cfg6.N)).mp h)) ((hcond6_1 (⟨9, hn⟩ : Fin cfg6.N)).mpr h1) (iblk6 V c 0 (⟨9, hn⟩ : Fin cfg6.N)) (iblk6 V c 1 (⟨9, hn⟩ : Fin cfg6.N)) (outsAt6 V c ((⟨9, hn⟩ : Fin cfg6.N).val - 1) (Nat.lt_of_le_of_lt (Nat.sub_le _ _) (⟨9, hn⟩ : Fin cfg6.N).isLt)).2).symm

abbrev res6 (c : Dev nD) : Buf (Elt Ideal) ((c : Thread nD τ).loc main_v77) := (outsAt6 V c 9 (by rw [show cfg6.N = 10 from N_6]; decide)).1

theorem flushed6_eq (c : Dev nD) (t : Fin cfg6.N) (hf : (cfg6.win 2).flush t = true) :
    (dat6 V c).flushed 2 t = ((cfg6.win 2).blk t).view.read (Elt Ideal) (res6 V c) := by
  have hN : cfg6.N = 10 := N_6
  have h9 : t.val = 9 := by have := (flush6_2 t).mp hf; have := t.isLt; omega
  obtain rfl : t = t6_9 := Fin.ext h9
  show (cfg6.win 2).cut (grid6.coords t6_9) ((dat6 V c).after 2 t6_9) = _
  rw [after6_2]
  have hz' : (fun a => win6_2.index t6_9 a * main_v77.ty.shape.size a) = fun _ => 0 := funext fun a => by fin_cases a <;> decide
  exact (Memref.read_access_unit_zero (Elt Ideal) main_v77 hz' (fun a => by rw [congrFun hz' a]; simp) (res6 V c)).symm

theorem arr6_eq (c : Dev nD) : (dat6 V c).arrAt 2 cfg6.N = res6 V c :=
  (dat6 V c).arrAt_eq_of_cover 2 (res6 V c) (flushed6_eq V c) fun i =>
    ⟨t6_9, (flush6_2 t6_9).mpr rfl, by
      show i ∈ ((View.whole main_v77).slice (win6_2.rect t6_9)).set
      rw [View.set_slice_whole, Rect.mem_set_unit]
      intro a
      have h0 : (i 0 : Nat) < 512 := (i 0).isLt
      have h1 : (i 1 : Nat) < 128 := (i 1).isLt
      match a with
      | ⟨0, _⟩ => show win6_2.index t6_9 0 * win6_2.size 0 ≤ (i 0 : Nat) ∧ (i 0 : Nat) < win6_2.index t6_9 0 * win6_2.size 0 + win6_2.xsize (grid6.coords t6_9) 0
                  rw [show win6_2.index t6_9 0 * win6_2.size 0 = 0 from by decide +kernel, show win6_2.xsize (grid6.coords t6_9) 0 = 512 from by decide +kernel]; omega
      | ⟨1, _⟩ => show win6_2.index t6_9 1 * win6_2.size 1 ≤ (i 1 : Nat) ∧ (i 1 : Nat) < win6_2.index t6_9 1 * win6_2.size 1 + win6_2.xsize (grid6.coords t6_9) 1
                  rw [show win6_2.index t6_9 1 * win6_2.size 1 = 0 from by decide +kernel, show win6_2.xsize (grid6.coords t6_9) 1 = 128 from by decide +kernel]; omega⟩

theorem arr6_apply (c : Dev nD) (g : Fin 512) (d : Fin 128) :
    (dat6 V c).arrAt 2 cfg6.N (ix2 g d)
      = ∑ r ∈ Finset.univ.filter (fun r : Fin 50000 => barr6 V c (ix2 r (0 : Fin 1)) = BitVec.ofNat 32 g.val), harr6 V c (ix2 r d) := by
  rw [arr6_eq V c]
  refine (congrFun (out6_last V c _) (ix2 g d)).trans ?_
  rw [acc6_eq V c 9 _ g d, sum_le_last6]
  refine (sum_blocks6 (fun r => (if barr6 V c (ix2 r (0 : Fin 1)) = BitVec.ofNat 32 g.val then (1 : EReal) else 0) * harr6 V c (ix2 r d))).trans ?_
  exact sum_ind_eq_filter6 _ _

/-- On its first 500 rows the readout's output is the host's accumulating scatter of the features by graph id. -/
theorem read6_arr (c : Dev nD) :
    extractStridedSlice S500x128 ![0, 0] ((dat6 (F := Ideal) V c).arrAt 2 cfg6.N) slices_S512x128_S500x128_0_0
      = Host.scatterAdd (F := Ideal) Cert.ReferenceIdeal.scatter_S500x128_S50000x1_S50000x128_1_0_0_1
          (broadcastInDim Cert.ReferenceIdeal.S500x128 ![] Cert.ReferenceIdeal.Facts₀.bcast_S_S500x128 (constant (F := Ideal) Cert.ReferenceIdeal.S_ .f32 0x00000000#32))
          (V c main_v76) (V c main_v75) := by
  funext i
  obtain ⟨g, d, rfl⟩ : ∃ (g : Fin 500) (d : Fin 128), i = ix2 g d := ⟨i 0, i 1, eq_ix2 i⟩
  have hg : g.val < 512 := by have := g.isLt; omega
  refine (slice2_axis0_apply 0 ((dat6 (F := Ideal) V c).arrAt 2 cfg6.N) slices_S512x128_S500x128_0_0 g d ⟨g.val, hg⟩ (by show g.val = 0 + g.val; omega)).trans ?_
  rw [arr6_apply V c ⟨g.val, hg⟩ d]
  show _ = Ideal.hostScatterAdd Cert.ReferenceIdeal.scatter_S500x128_S50000x1_S50000x128_1_0_0_1
    (broadcastInDim Cert.ReferenceIdeal.S500x128 ![] Cert.ReferenceIdeal.Facts₀.bcast_S_S500x128 (constant (F := Ideal) Cert.ReferenceIdeal.S_ .f32 0x00000000#32))
    (V c main_v76) (V c main_v75) (ix2 g d)
  rw [Cert.Rgcn.Lib.scatterAdd_rows_apply Cert.ReferenceIdeal.scatter_S500x128_S50000x1_S50000x128_1_0_0_1 rfl rfl rfl rfl]
  have ez : broadcastInDim Cert.ReferenceIdeal.S500x128 ![] Cert.ReferenceIdeal.Facts₀.bcast_S_S500x128 (constant (F := Ideal) Cert.ReferenceIdeal.S_ .f32 0x00000000#32) (ix2 g d) = 0 :=
    (broadcastInDim_apply _ Cert.ReferenceIdeal.Facts₀.bcast_S_S500x128 (constant (F := Ideal) Cert.ReferenceIdeal.S_ .f32 0x00000000#32) (ix2 g d) ix0 (fun a => a.elim0)).trans Ideal.ofBits_zero_f32
  rw [ez, zero_add]
  refine Finset.sum_congr (Finset.filter_congr fun r _ => ?_) (fun _ _ => rfl)
  exact word_eq_iff6 (V c main_v76 (ix2 r (0 : Fin 1))) g.val hg

end AtIdeal

end Cert.KernelIdeal.Hand

end
-- ==== Proof.KI.Reshape.lean ====
import proofs.«412905_j38783554683010_1_alg».proof.Proof.Gen.KernelIdeal
import proofs.«412905_j38783554683010_1_alg».proof.Proof.Gen.ReferenceIdeal
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.ValueIdx

variable {F : FTy → Type} [FloatOps F]

section Kept
variable {α : Type}

theorem shapeCast_vec_col {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

theorem broadcastInDim_vec_col {a : ℕ} (x : (⟨1, ![a]⟩ : Shape).Idx → α)
    (h : (⟨1, ![a]⟩ : Shape).BroadcastsInDim ⟨2, ![a, 1]⟩ (![0] : Fin 1 → Fin 2))
    (p : Fin a) (u : Fin 1) : broadcastInDim ⟨2, ![a, 1]⟩ (![0] : Fin 1 → Fin 2) h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

theorem broadcastInDim_vec_row {b : ℕ} (x : (⟨1, ![b]⟩ : Shape).Idx → α)
    (h : (⟨1, ![b]⟩ : Shape).BroadcastsInDim ⟨2, ![1, b]⟩ (![1] : Fin 1 → Fin 2))
    (u : Fin 1) (c : Fin b) : broadcastInDim ⟨2, ![1, b]⟩ (![1] : Fin 1 → Fin 2) h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- Reshaping a vector to a column is broadcasting it along axis 0 into the column shape: both read entry p at (p, 0). -/
theorem reshape_col (d : S50000.Idx → α) :
    shapeCast S50000x1 d shapeCasts_S50000_S50000x1
      = broadcastInDim Cert.ReferenceIdeal.S50000x1 ![0] Cert.ReferenceIdeal.Gen.bcast_S50000_S50000x1_0 d := by
  funext j
  obtain ⟨p, u, rfl⟩ : ∃ (p : Fin 50000) (u : Fin 1), j = ix2 p u := ⟨j 0, j 1, eq_ix2 j⟩
  exact (shapeCast_vec_col d shapeCasts_S50000_S50000x1 p u).trans
    (broadcastInDim_vec_col d Cert.ReferenceIdeal.Gen.bcast_S50000_S50000x1_0 p u).symm

/-- Reshaping a vector to a row is broadcasting it along axis 1 into the row shape: both read entry c at (0, c). -/
theorem reshape_row (b : S128.Idx → α) :
    shapeCast S1x128 b shapeCasts_S128_S1x128
      = broadcastInDim Cert.ReferenceIdeal.S1x128 ![1] Cert.ReferenceIdeal.Gen.bcast_S128_S1x128_1 b := by
  funext j
  obtain ⟨u, c, rfl⟩ : ∃ (u : Fin 1) (c : Fin 128), j = ix2 u c := ⟨j 0, j 1, eq_ix2 j⟩
  exact (shapeCast_a_1a_apply b shapeCasts_S128_S1x128 u c).trans
    (broadcastInDim_vec_row b Cert.ReferenceIdeal.Gen.bcast_S128_S1x128_1 u c).symm

end Kept

theorem reshape_col_f32 (d : (⟨S50000, .f32⟩ : BufTy).Contents (Elt F)) :
    shapeCast S50000x1 d shapeCasts_S50000_S50000x1
      = broadcastInDim Cert.ReferenceIdeal.S50000x1 ![0] Cert.ReferenceIdeal.Gen.bcast_S50000_S50000x1_0 d :=
  reshape_col d

theorem reshape_col_i32 (d : (⟨S50000, .i32⟩ : BufTy).Contents (Elt F)) :
    shapeCast S50000x1 d shapeCasts_S50000_S50000x1
      = broadcastInDim Cert.ReferenceIdeal.S50000x1 ![0] Cert.ReferenceIdeal.Gen.bcast_S50000_S50000x1_0 d :=
  reshape_col d

theorem reshape_row_f32 (b : (⟨S128, .f32⟩ : BufTy).Contents (Elt F)) :
    shapeCast S1x128 b shapeCasts_S128_S1x128
      = broadcastInDim Cert.ReferenceIdeal.S1x128 ![1] Cert.ReferenceIdeal.Gen.bcast_S128_S1x128_1 b :=
  reshape_row b

end Cert.KernelIdeal.Hand

end
-- ==== Proof.KI.Chain.lean ====
import proofs.«412905_j38783554683010_1_alg».proof.Proof.KI.RunDefs
import proofs.«412905_j38783554683010_1_alg».proof.Proof.KI.LinVal0
import proofs.«412905_j38783554683010_1_alg».proof.Proof.KI.LinVal2
import proofs.«412905_j38783554683010_1_alg».proof.Proof.KI.LinVal4
import proofs.«412905_j38783554683010_1_alg».proof.Proof.KI.SelfVal1
import proofs.«412905_j38783554683010_1_alg».proof.Proof.KI.SelfVal3
import proofs.«412905_j38783554683010_1_alg».proof.Proof.KI.SelfVal5
import proofs.«412905_j38783554683010_1_alg».proof.Proof.KI.ReadVal6
import proofs.«412905_j38783554683010_1_alg».proof.Proof.KI.Reshape
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal.Read

variable (m : (ℓ : Loc nD τ sig) → Buf (Elt Ideal) ℓ) (ρ : Dev nD → PrngReg) (c : Dev nD)

theorem WE0_arg0 : WE0 m ρ c (Proc.devRef .tc main_arg0) = (m ((c : Thread nD τ).loc main_arg0)) :=
  span m ρ c main_arg0 0 1 (by decide) (by decide)

theorem WE0_arg3 : WE0 m ρ c (Proc.devRef .tc main_arg3) = (m ((c : Thread nD τ).loc main_arg3)) :=
  span m ρ c main_arg3 0 1 (by decide) (by decide)

theorem WX0_arg4 : WX0 m ρ c (Proc.devRef .tc main_arg4) = (m ((c : Thread nD τ).loc main_arg4)) :=
  span m ρ c main_arg4 0 2 (by decide) (by decide)

theorem WX1_arg5 : WX1 m ρ c (Proc.devRef .tc main_arg5) = (m ((c : Thread nD τ).loc main_arg5)) :=
  span m ρ c main_arg5 0 4 (by decide) (by decide)

theorem WX2_arg6 : WX2 m ρ c (Proc.devRef .tc main_arg6) = (m ((c : Thread nD τ).loc main_arg6)) :=
  span m ρ c main_arg6 0 5 (by decide) (by decide)

theorem WX3_arg7 : WX3 m ρ c (Proc.devRef .tc main_arg7) = (m ((c : Thread nD τ).loc main_arg7)) :=
  span m ρ c main_arg7 0 7 (by decide) (by decide)

theorem WX4_arg8 : WX4 m ρ c (Proc.devRef .tc main_arg8) = (m ((c : Thread nD τ).loc main_arg8)) :=
  span m ρ c main_arg8 0 8 (by decide) (by decide)

theorem WX5_arg2 : WX5 m ρ c (Proc.devRef .tc main_arg2) = (m ((c : Thread nD τ).loc main_arg2)) :=
  span m ρ c main_arg2 0 10 (by decide) (by decide)

theorem WX6_arg2 : WX6 m ρ c (Proc.devRef .tc main_arg2) = (m ((c : Thread nD τ).loc main_arg2)) :=
  span m ρ c main_arg2 0 12 (by decide) (by decide)

theorem WX6_arg9 : WX6 m ρ c (Proc.devRef .tc main_arg9) = (m ((c : Thread nD τ).loc main_arg9)) :=
  span m ρ c main_arg9 0 12 (by decide) (by decide)

theorem WX6_arg10 : WX6 m ρ c (Proc.devRef .tc main_arg10) = (m ((c : Thread nD τ).loc main_arg10)) :=
  span m ρ c main_arg10 0 12 (by decide) (by decide)

theorem WE0_v1 : WE0 m ρ c (Proc.devRef .tc main_v1) = val_main_v1 (m ((c : Thread nD τ).loc main_arg1)) := by
  show StableHlo.after hostOps0 (W0 m ρ c) (Proc.devRef .tc main_v1) = _
  after_results_simp
  unfold val_main_v1 val_main_v0
  rfl

theorem WE0_v3 : WE0 m ρ c (Proc.devRef .tc main_v3) = val_main_v3 (m ((c : Thread nD τ).loc main_arg1)) := by
  show StableHlo.after hostOps0 (W0 m ρ c) (Proc.devRef .tc main_v3) = _
  after_results_simp
  unfold val_main_v3 val_main_v2
  rfl

theorem WE0_v25 : WE0 m ρ c (Proc.devRef .tc main_v25) = val_main_v25 (m ((c : Thread nD τ).loc main_arg1)) := by
  show StableHlo.after hostOps0 (W0 m ρ c) (Proc.devRef .tc main_v25) = _
  after_results_simp
  unfold val_main_v25 val_main_v24 val_main_v23 val_main_v22 val_main_v21 val_main_v20 val_main_c_4 val_main_v19 val_main_v18 val_main_c_3 val_main_v17 val_main_v16 val_main_v15 val_main_v14 val_main_v13 val_main_c_2 val_main_v12 val_main_v11 val_main_c val_main_v10 val_main_v9 val_main_v8 val_main_cst_1 val_main_v7 val_main_v6 val_main_v5 val_main_cst_0 val_main_v4 val_main_cst val_main_v3 val_main_v2 val_main_v1 val_main_v0
  rfl

theorem WE0_v27 : WE0 m ρ c (Proc.devRef .tc main_v27) = val_main_v41 (m ((c : Thread nD τ).loc main_arg1)) := by
  have h : WE0 m ρ c (Proc.devRef .tc main_v27) = shapeCast S50000x1 (val_main_v40 (m ((c : Thread nD τ).loc main_arg1))) shapeCasts_S50000_S50000x1 := by
    show StableHlo.after hostOps0 (W0 m ρ c) (Proc.devRef .tc main_v27) = _
    after_results_simp
    unfold val_main_v40 val_main_v10 val_main_v9 val_main_v8 val_main_cst_1 val_main_v7 val_main_v6 val_main_v5 val_main_cst_0 val_main_v4 val_main_cst val_main_v3 val_main_v2
    rfl
  rw [h, reshape_col_f32]
  unfold val_main_v41
  rfl

theorem v41_eq_v64 (x1 : (⟨S2x600000, .i32⟩ : BufTy).Contents (Elt Ideal)) : val_main_v41 x1 = val_main_v64 x1 := by
  unfold val_main_v41 val_main_v40 val_main_v64 val_main_v63; rfl
theorem v41_eq_v87 (x1 : (⟨S2x600000, .i32⟩ : BufTy).Contents (Elt Ideal)) : val_main_v41 x1 = val_main_v87 x1 := by
  unfold val_main_v41 val_main_v40 val_main_v87 val_main_v86; rfl

theorem WX0_v1 : WX0 m ρ c (Proc.devRef .tc main_v1) = val_main_v1 (m ((c : Thread nD τ).loc main_arg1)) :=
  (span m ρ c main_v1 1 2 (by decide) (by decide)).trans (WE0_v1 m ρ c)

theorem WX0_v3 : WX0 m ρ c (Proc.devRef .tc main_v3) = val_main_v3 (m ((c : Thread nD τ).loc main_arg1)) :=
  (span m ρ c main_v3 1 2 (by decide) (by decide)).trans (WE0_v3 m ρ c)

theorem WX0_v25 : WX0 m ρ c (Proc.devRef .tc main_v25) = val_main_v25 (m ((c : Thread nD τ).loc main_arg1)) :=
  (span m ρ c main_v25 1 2 (by decide) (by decide)).trans (WE0_v25 m ρ c)

theorem WE1_v27 : WE1 m ρ c (Proc.devRef .tc main_v27) = val_main_v41 (m ((c : Thread nD τ).loc main_arg1)) :=
  (span m ρ c main_v27 1 3 (by decide) (by decide)).trans (WE0_v27 m ρ c)

/-- Region 0 leaves the product of the node features and the first weight matrix. -/
theorem WX0_v28 : WX0 m ρ c (Proc.devRef .tc main_v28) = val_main_v26 (m ((c : Thread nD τ).loc main_arg0)) (m ((c : Thread nD τ).loc main_arg3)) :=
  (WX0_arr m ρ c 2).trans ((lin0_arr (UE0 m ρ) c).trans (by
    have e0 : UE0 m ρ c main_arg0 = _ := WE0_arg0 m ρ c
    have e1 : UE0 m ρ c main_arg3 = _ := WE0_arg3 m ρ c
    rw [e0, e1]; unfold val_main_v26; rfl))

/-- The host stretch aggregates: gather at the edges' sources, scale by the edge norms, sum at the targets. -/
theorem WE1_v41 : WE1 m ρ c (Proc.devRef .tc main_v41) = val_main_v39 (m ((c : Thread nD τ).loc main_arg0)) (m ((c : Thread nD τ).loc main_arg1)) (m ((c : Thread nD τ).loc main_arg3)) := by
  show StableHlo.after hostOps1 (WX0 m ρ c) (Proc.devRef .tc main_v41) = _
  after_results_simp
  rw [WX0_v1 m ρ c, WX0_v3 m ρ c, WX0_v25 m ρ c, WX0_v28 m ρ c]
  unfold val_main_v39 val_main_v38 val_main_v37 val_main_cst_7 val_main_v36 val_main_v35 val_main_v34 val_main_v33 val_main_v32 val_main_v31 val_main_v30 val_main_v29 val_main_c_6 val_main_v28 val_main_v27 val_main_c_5
  rfl

theorem WE1_v42 : WE1 m ρ c (Proc.devRef .tc main_v42) = val_main_v45 (m ((c : Thread nD τ).loc main_arg4)) := by
  have h : WE1 m ρ c (Proc.devRef .tc main_v42) = shapeCast S1x128 (WX0 m ρ c (Proc.devRef .tc main_arg4)) shapeCasts_S128_S1x128 := by
    show StableHlo.after hostOps1 (WX0 m ρ c) (Proc.devRef .tc main_v42) = _
    after_results
    rfl
  rw [h, WX0_arg4 m ρ c, reshape_row_f32]
  unfold val_main_v45
  rfl

/-- Region 1 leaves the rectified sum of the aggregate, the self-loop term and the bias; layers 2 and 3 repeat the pattern. -/
theorem WX1_v43 : WX1 m ρ c (Proc.devRef .tc main_v43) = val_main_v48 (m ((c : Thread nD τ).loc main_arg0)) (m ((c : Thread nD τ).loc main_arg1)) (m ((c : Thread nD τ).loc main_arg3)) (m ((c : Thread nD τ).loc main_arg4)) :=
  (WX1_arr m ρ c 4).trans ((self1_arr (UE1 m ρ) c).trans (by
    have e0 : UE1 m ρ c main_v41 = _ := WE1_v41 m ρ c
    have e1 : UE1 m ρ c main_v28 = _ := (span m ρ c main_v28 2 3 (by decide) (by decide)).trans (WX0_v28 m ρ c)
    have e2 : UE1 m ρ c main_v27 = _ := WE1_v27 m ρ c
    have e3 : UE1 m ρ c main_v42 = _ := WE1_v42 m ρ c
    rw [e0, e1, e2, e3]
    unfold val_main_v48 val_main_call0_v0 val_main_call0_cst val_main_v47 val_main_v46 val_main_v44 val_main_v43 val_main_v42
    rfl))

theorem WX2_v44 : WX2 m ρ c (Proc.devRef .tc main_v44) = val_main_v49 (m ((c : Thread nD τ).loc main_arg0)) (m ((c : Thread nD τ).loc main_arg1)) (m ((c : Thread nD τ).loc main_arg3)) (m ((c : Thread nD τ).loc main_arg4)) (m ((c : Thread nD τ).loc main_arg5)) :=
  (WX2_arr m ρ c 2).trans ((lin2_arr (UE2 m ρ) c).trans (by
    have e0 : UE2 m ρ c main_v43 = _ := WX1_v43 m ρ c
    have e1 : UE2 m ρ c main_arg5 = _ := WX1_arg5 m ρ c
    rw [e0, e1]; unfold val_main_v49; rfl))

theorem WX2_v1 : WX2 m ρ c (Proc.devRef .tc main_v1) = val_main_v1 (m ((c : Thread nD τ).loc main_arg1)) :=
  (span m ρ c main_v1 2 5 (by decide) (by decide)).trans (WX0_v1 m ρ c)

theorem WX2_v3 : WX2 m ρ c (Proc.devRef .tc main_v3) = val_main_v3 (m ((c : Thread nD τ).loc main_arg1)) :=
  (span m ρ c main_v3 2 5 (by decide) (by decide)).trans (WX0_v3 m ρ c)

theorem WX2_v25 : WX2 m ρ c (Proc.devRef .tc main_v25) = val_main_v25 (m ((c : Thread nD τ).loc main_arg1)) :=
  (span m ρ c main_v25 2 5 (by decide) (by decide)).trans (WX0_v25 m ρ c)

theorem WE3_v27 : WE3 m ρ c (Proc.devRef .tc main_v27) = val_main_v41 (m ((c : Thread nD τ).loc main_arg1)) :=
  (span m ρ c main_v27 3 6 (by decide) (by decide)).trans (WE1_v27 m ρ c)

theorem WE3_v57 : WE3 m ρ c (Proc.devRef .tc main_v57) = val_main_v62 (m ((c : Thread nD τ).loc main_arg0)) (m ((c : Thread nD τ).loc main_arg1)) (m ((c : Thread nD τ).loc main_arg3)) (m ((c : Thread nD τ).loc main_arg4)) (m ((c : Thread nD τ).loc main_arg5)) := by
  show StableHlo.after hostOps3 (WX2 m ρ c) (Proc.devRef .tc main_v57) = _
  after_results_simp
  rw [WX2_v1 m ρ c, WX2_v3 m ρ c, WX2_v25 m ρ c, WX2_v44 m ρ c]
  unfold val_main_v62 val_main_v61 val_main_v60 val_main_cst_10 val_main_v59 val_main_v58 val_main_v57 val_main_v56 val_main_v55 val_main_v54 val_main_v53 val_main_v52 val_main_c_9 val_main_v51 val_main_v50 val_main_c_8
  rfl

theorem WE3_v58 : WE3 m ρ c (Proc.devRef .tc main_v58) = val_main_v68 (m ((c : Thread nD τ).loc main_arg6)) := by
  have h : WE3 m ρ c (Proc.devRef .tc main_v58) = shapeCast S1x128 (WX2 m ρ c (Proc.devRef .tc main_arg6)) shapeCasts_S128_S1x128 := by
    show StableHlo.after hostOps3 (WX2 m ρ c) (Proc.devRef .tc main_v58) = _
    after_results
    rfl
  rw [h, WX2_arg6 m ρ c, reshape_row_f32]
  unfold val_main_v68
  rfl

theorem WX3_v59 : WX3 m ρ c (Proc.devRef .tc main_v59) = val_main_v71 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) :=
  (WX3_arr m ρ c 4).trans ((self3_arr (UE3 m ρ) c).trans (by
    have e0 : UE3 m ρ c main_v57 = _ := WE3_v57 m ρ c
    have e1 : UE3 m ρ c main_v44 = _ := (span m ρ c main_v44 5 6 (by decide) (by decide)).trans (WX2_v44 m ρ c)
    have e2 : UE3 m ρ c main_v27 = _ := (WE3_v27 m ρ c).trans (v41_eq_v64 _)
    have e3 : UE3 m ρ c main_v58 = _ := WE3_v58 m ρ c
    rw [e0, e1, e2, e3]
    unfold val_main_v71 val_main_call1_v0 val_main_call1_cst val_main_v70 val_main_v69 val_main_v67 val_main_v66 val_main_v65
    rfl))

theorem WX4_v60 : WX4 m ρ c (Proc.devRef .tc main_v60) = val_main_v72 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) :=
  (WX4_arr m ρ c 2).trans ((lin4_arr (UE4 m ρ) c).trans (by
    have e0 : UE4 m ρ c main_v59 = _ := WX3_v59 m ρ c
    have e1 : UE4 m ρ c main_arg7 = _ := WX3_arg7 m ρ c
    rw [e0, e1]; unfold val_main_v72; rfl))

theorem WX4_v1 : WX4 m ρ c (Proc.devRef .tc main_v1) = val_main_v1 (m ((c : Thread nD τ).loc main_arg1)) :=
  (span m ρ c main_v1 5 8 (by decide) (by decide)).trans (WX2_v1 m ρ c)

theorem WX4_v3 : WX4 m ρ c (Proc.devRef .tc main_v3) = val_main_v3 (m ((c : Thread nD τ).loc main_arg1)) :=
  (span m ρ c main_v3 5 8 (by decide) (by decide)).trans (WX2_v3 m ρ c)

theorem WX4_v25 : WX4 m ρ c (Proc.devRef .tc main_v25) = val_main_v25 (m ((c : Thread nD τ).loc main_arg1)) :=
  (span m ρ c main_v25 5 8 (by decide) (by decide)).trans (WX2_v25 m ρ c)

theorem WE5_v27 : WE5 m ρ c (Proc.devRef .tc main_v27) = val_main_v41 (m ((c : Thread nD τ).loc main_arg1)) :=
  (span m ρ c main_v27 6 9 (by decide) (by decide)).trans (WE3_v27 m ρ c)

theorem WE5_v73 : WE5 m ρ c (Proc.devRef .tc main_v73) = val_main_v85 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) := by
  show StableHlo.after hostOps5 (WX4 m ρ c) (Proc.devRef .tc main_v73) = _
  after_results_simp
  rw [WX4_v1 m ρ c, WX4_v3 m ρ c, WX4_v25 m ρ c, WX4_v60 m ρ c]
  unfold val_main_v85 val_main_v84 val_main_v83 val_main_cst_13 val_main_v82 val_main_v81 val_main_v80 val_main_v79 val_main_v78 val_main_v77 val_main_v76 val_main_v75 val_main_c_12 val_main_v74 val_main_v73 val_main_c_11
  rfl

theorem WE5_v74 : WE5 m ρ c (Proc.devRef .tc main_v74) = val_main_v91 (m ((c : Thread nD τ).loc main_arg8)) := by
  have h : WE5 m ρ c (Proc.devRef .tc main_v74) = shapeCast S1x128 (WX4 m ρ c (Proc.devRef .tc main_arg8)) shapeCasts_S128_S1x128 := by
    show StableHlo.after hostOps5 (WX4 m ρ c) (Proc.devRef .tc main_v74) = _
    after_results
    rfl
  rw [h, WX4_arg8 m ρ c, reshape_row_f32]
  unfold val_main_v91
  rfl

theorem WX5_v75 : WX5 m ρ c (Proc.devRef .tc main_v75) = val_main_v94 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (WX5_arr m ρ c 4).trans ((self5_arr (UE5 m ρ) c).trans (by
    have e0 : UE5 m ρ c main_v73 = _ := WE5_v73 m ρ c
    have e1 : UE5 m ρ c main_v60 = _ := (span m ρ c main_v60 8 9 (by decide) (by decide)).trans (WX4_v60 m ρ c)
    have e2 : UE5 m ρ c main_v27 = _ := (WE5_v27 m ρ c).trans (v41_eq_v87 _)
    have e3 : UE5 m ρ c main_v74 = _ := WE5_v74 m ρ c
    rw [e0, e1, e2, e3]
    unfold val_main_v94 val_main_call2_v0 val_main_call2_cst val_main_v93 val_main_v92 val_main_v90 val_main_v89 val_main_v88
    rfl))

theorem WE6_v76 : WE6 m ρ c (Proc.devRef .tc main_v76) = val_main_v100 (m ((c : Thread nD τ).loc main_arg2)) := by
  have h : WE6 m ρ c (Proc.devRef .tc main_v76) = shapeCast S50000x1 (WX5 m ρ c (Proc.devRef .tc main_arg2)) shapeCasts_S50000_S50000x1 := by
    show StableHlo.after hostOps6 (WX5 m ρ c) (Proc.devRef .tc main_v76) = _
    after_results
    rfl
  rw [h, WX5_arg2 m ρ c, reshape_col_i32]
  unfold val_main_v100
  rfl

/-- The first 500 rows of the readout's output are the per-graph sums of the last layer's features. -/
theorem WX6_slice77 : extractStridedSlice S500x128 ![0, 0] (WX6 m ρ c (Proc.devRef .tc main_v77)) slices_S512x128_S500x128_0_0 = val_main_v101 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  have h : WX6 m ρ c (Proc.devRef .tc main_v77) = (dat6 (UE6 m ρ) c).arrAt 2 cfg6.N := WX6_arr m ρ c 2
  have e0 : UE6 m ρ c main_v76 = _ := WE6_v76 m ρ c
  have e1 : UE6 m ρ c main_v75 = _ := (span m ρ c main_v75 10 11 (by decide) (by decide)).trans (WX5_v75 m ρ c)
  rw [h, read6_arr, e0, e1]
  unfold val_main_v101 val_main_v99 val_main_cst_16
  rfl

/-- The result buffer's last contents is the reference's last stage at the argument arrays. -/
theorem result_eq_aux : WEnd m ρ c (Proc.devRef .tc main_v114) = val_main_v133 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  show StableHlo.after hostOps7 (WX6 m ρ c) (Proc.devRef .tc main_v114) = _
  after_results_simp
  rw [WX6_slice77 m ρ c, WX6_arg2 m ρ c, WX6_arg9 m ρ c, WX6_arg10 m ρ c]
  unfold val_main_v133 val_main_v132 val_main_v131 val_main_v130 val_main_v129 val_main_v128 val_main_cst_25 val_main_v127 val_main_v126 val_main_cst_24 val_main_v125 val_main_v124 val_main_cst_23 val_main_v123 val_main_v122 val_main_v121 val_main_v120 val_main_v119 val_main_cst_22 val_main_v118 val_main_v117 val_main_v116 val_main_v115 val_main_v114 val_main_cst_21 val_main_v113 val_main_v112 val_main_v111 val_main_cst_20 val_main_v110 val_main_v109 val_main_v108 val_main_cst_19 val_main_v107 val_main_cst_18 val_main_v106 val_main_v105 val_main_v104 val_main_v103 val_main_v102 val_main_cst_17 val_main_v98 val_main_v97 val_main_v96 val_main_cst_15 val_main_v95 val_main_cst_14
  rfl

theorem result_eq (m : (ℓ : Loc nD τ sig) → Buf (Elt Ideal) ℓ) (ρ : Dev nD → PrngReg) (c : Dev nD) :
    WEnd (F := Ideal) m ρ c (Proc.devRef .tc main_v114)
      = Cert.ReferenceIdeal.Read.val_main_v133 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  result_eq_aux m ρ c

end Cert.KernelIdeal.Hand

end
-- ==== Proof.lean ====
/-
  Three graph-convolution layers, a per-graph mean readout and prototype scores. The kernel program computes the three
  projections, the three fused passes and the per-graph sums in seven kernel regions and the rest in host operations;
  the reference computes all of it in host operations. Over the exact extended reals each region's output array is the
  reference's stage of the same operation, so the two results are one function of the arguments; each program's run
  terminates without fault and leaves its arguments as launched.
-/
import proofs.«412905_j38783554683010_1_alg».proof.Defs
import proofs.«412905_j38783554683010_1_alg».proof.Proof.Gen.Kernel
import proofs.«412905_j38783554683010_1_alg».proof.Proof.Gen.KernelIdeal
import proofs.«412905_j38783554683010_1_alg».proof.Proof.Gen.ReferenceIdeal
import proofs.«412905_j38783554683010_1_alg».proof.Proof.Gen.Pre_finite_inputs
import proofs.«412905_j38783554683010_1_alg».proof.Proof.Gen.ReferenceIdeal.Run
import proofs.«412905_j38783554683010_1_alg».proof.Proof.Gen.ReferenceIdeal.Read
import proofs.«412905_j38783554683010_1_alg».proof.Proof.KB.Run
import proofs.«412905_j38783554683010_1_alg».proof.Proof.KI.Run
import proofs.«412905_j38783554683010_1_alg».proof.Proof.KI.Chain
import Idealize.ShloMosaic.Adequacy
import Idealize.ShloMosaic.Init

noncomputable section

namespace Cert.Proof

open Idealize.ShloMosaic Idealize.ShloMosaic.TcCoe Idealize.SL.Sem

/-- The word-level program runs item by item and leaves its arguments as launched; -/
theorem frame_k : Cert.frame_Kernel := fun m ρ _ => Cert.Kernel.Hand.frame m ρ

/-- so does its idealization; -/
theorem frame_ki : Cert.frame_KernelIdeal := fun m ρ _ => Cert.KernelIdeal.Hand.frame m ρ

/-- the reference's frame is its operations' run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments the kernel program's result is the reference's composed term of them. -/
theorem algebraic : Cert.algebraic_KernelIdeal_ReferenceIdeal := by
  intro m ρ m' ρ' _ hagree
  refine ⟨fun c => Cert.KernelIdeal.Hand.WEnd (F := Ideal) m ρ c (Proc.devRef .tc Cert.KernelIdeal.main_v114), Cert.KernelIdeal.Hand.run_res (F := Ideal) m ρ, ?_⟩
  refine (θ_run Cert.ReferenceIdeal.defs _ _).mono (fun _ h c => ⟨(h c).1.trans ?_, (h c).2⟩) (Cert.ReferenceIdeal.Value.run (F := Ideal) m' ρ')
  rw [Cert.ReferenceIdeal.Read.val_main_v133_eq, (hagree c).1, (hagree c).2.1, (hagree c).2.2.1, (hagree c).2.2.2.1, (hagree c).2.2.2.2.1,
    (hagree c).2.2.2.2.2.1, (hagree c).2.2.2.2.2.2.1, (hagree c).2.2.2.2.2.2.2.1, (hagree c).2.2.2.2.2.2.2.2.1,
    (hagree c).2.2.2.2.2.2.2.2.2.1, (hagree c).2.2.2.2.2.2.2.2.2.2]
  exact (Cert.KernelIdeal.Hand.result_eq m ρ c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
